-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x2048x1024 .f32) (main_arg1 : FVec F S1024x1024 .f32) (main_arg2 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8x2048x1024 : Shape := ⟨3, ![8, 2048, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S8x1x2048 : Shape := ⟨3, ![8, 1, 2048]⟩
abbrev S1x1024x1024 : Shape := ⟨3, ![1, 1024, 1024]⟩
abbrev S1x1x1024 : Shape := ⟨3, ![1, 1, 1024]⟩
abbrev S1x1x512 : Shape := ⟨3, ![1, 1, 512]⟩
abbrev S1024x512 : Shape := ⟨2, ![1024, 512]⟩
abbrev S1x512 : Shape := ⟨2, ![1, 512]⟩

abbrev nBuf : Space → Nat
  | .hbm => 8
  | .vmem => 27
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S8x2048x1024, .bf16⟩
  | .hbm, ⟨5, _⟩ => ⟨S8x2048x1024, .bf16⟩
  | .hbm, ⟨6, _⟩ => ⟨S8x1x2048, .f32⟩
  | .hbm, ⟨7, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .f32⟩
  | .local _ .vmem, ⟨3, _⟩ => ⟨S1x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024, .f32⟩
  | .local _ .vmem, ⟨16, _⟩ => ⟨S1x1024x1024, .bf16⟩
  | .local _ .vmem, ⟨17, _⟩ => ⟨S1x1024x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x1x512, .f32⟩
  | .local _ .vmem, ⟨21, _⟩ => ⟨S1x1x512, .f32⟩
  | .local _ .vmem, ⟨22, _⟩ => ⟨S1x512x1024, .bf16⟩
  | .local _ .vmem, ⟨23, _⟩ => ⟨S1x512x1024, .bf16⟩
  | .local _ .vmem, ⟨24, _⟩ => ⟨S1x1024x1024, .f32⟩
  | .local _ .vmem, ⟨25, _⟩ => ⟨S1x1024x1024, .f32⟩
  | .local _ .vmem, ⟨26, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc1_scratch1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![8, 2, 2], ![false, false, false]⟩

def k1_cond3 (i : grid1.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 2, 4], ![false, false, false]⟩

def k2_cond3 (i : grid2.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_2 : BitVec 32 := 0#32
  let v11 : BitVec 1 := Scalar.cmpi .ne v10 c0_i32_2
  v11

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 2 → Memref sig .tc .vmem S1x512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, true]

abbrev stage2_4 : Fin 2 → Memref sig .tc .vmem S1x1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

class Facts₀ : Prop where
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  iota_S1024x1024_d0_w32 : S1024x1024.Iotas .tc 32 [0]
  iota_S1024x1024_d1_w32 : S1024x1024.Iotas .tc 32 [1]
  reduces_S1024x1024_S1024 : S1024x1024.Reduces [0] S1024
  broadcasts_S1x1024_S1024x1024 : S1x1024.Broadcasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S1024x1024_S1024x1024 : S1024x1024.ShapeCasts S1024x1024
  iota_S1024x512_d0_w32 : S1024x512.Iotas .tc 32 [0]
  iota_S1024x512_d1_w32 : S1024x512.Iotas .tc 32 [1]
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  shapeCasts_S1024x1024_S1x1024x1024 : S1024x1024.ShapeCasts S1x1024x1024
  dot_S512x1024_S1024x1024_S512x1024_1_0_0_1_n_n_wf : DotDims.WF S512x1024 S1024x1024 S512x1024 [1] [0] [0] [1] [] []
  dot_S1024x1024_S1024x1024_S1024x1024_1_1_0_0_n_n_wf : DotDims.WF S1024x1024 S1024x1024 S1024x1024 [1] [1] [0] [0] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x2048x1024.size a
  hwx0_3 : ∀ i : grid0.Coords, EltTy.bits .bf16 = 32 ∨ (Rect.block (s := S8x2048x1024) S1x512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S8x2048x1024.size a
  hwx0_4 : ∀ i : grid0.Coords, EltTy.bits .bf16 = 32 ∨ (Rect.block (s := S8x2048x1024) S1x512x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S8x2048x1024.size a
  hwx1_0 : ∀ i : grid1.Coords, EltTy.bits .bf16 = 32 ∨ (Rect.block (s := S8x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S8x2048x1024.size a
  hwx1_1 : ∀ i : grid1.Coords, EltTy.bits .bf16 = 32 ∨ (Rect.block (s := S8x2048x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024.size a ≤ S8x1x2048.size a
  hwx1_2 : ∀ i : grid1.Coords, EltTy.bits .f32 = 32 ∨ (Rect.block (s := S8x1x2048) S1x1x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x1024.size a ≤ S8x2048x1024.size a
  hwx2_0 : ∀ i : grid2.Coords, EltTy.bits .bf16 = 32 ∨ (Rect.block (s := S8x2048x1024) S1x1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x1024.size a ≤ S8x2048x1024.size a
  hwx2_1 : ∀ i : grid2.Coords, EltTy.bits .bf16 = 32 ∨ (Rect.block (s := S8x2048x1024) S1x512x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x512.size a ≤ S8x1x2048.size a
  hwx2_2 : ∀ i : grid2.Coords, EltTy.bits .f32 = 32 ∨ (Rect.block (s := S8x1x2048) S1x1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x1024.size a ≤ S8x2048x1024.size a
  hwx2_3 : ∀ i : grid2.Coords, EltTy.bits .bf16 = 32 ∨ (Rect.block (s := S8x2048x1024) S1x512x1024.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024x1024.size a ≤ S8x2048x1024.size a
  hwx2_4 : ∀ i : grid2.Coords, EltTy.bits .f32 = 32 ∨ (Rect.block (s := S8x2048x1024) S1x1024x1024.size (cc2_transform_4 i) (hinb2_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1_0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond3 i == 1#1) | ⟨_ + 3, h⟩ => absurd h (Nat.not_lt.2 (Nat.le_add_left _ _))

abbrev win2_0 : Pipeline.Window sig grid2 :=
  Pipeline.Window.ofSpec (Memref.whole main_v1_0) S1x1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_0) S1x512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1_1) S1x512x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3) S1x1024x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond3 i == 1#1) | ⟨_ + 5, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S8x2048x2048 : Shape := ⟨3, ![8, 2048, 2048]⟩
abbrev S_ : Shape := ⟨0, ![]⟩
abbrev S2048x2048 : Shape := ⟨2, ![2048, 2048]⟩
abbrev S1x2048x2048 : Shape := ⟨3, ![1, 2048, 2048]⟩
abbrev S8x2048 : Shape := ⟨2, ![8, 2048]⟩
abbrev S8x1x2048 : Shape := ⟨3, ![8, 1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S8x2048x1024, .f32⟩
  | .hbm, ⟨4, _⟩ => ⟨S1x1x1024, .f32⟩
  | .hbm, ⟨5, _⟩ => ⟨S8x2048x1024, .f32⟩
  | .hbm, ⟨6, _⟩ => ⟨S8x2048x1024, .f32⟩
  | .hbm, ⟨7, _⟩ => ⟨S8x2048x2048, .f32⟩
  | .hbm, ⟨8, _⟩ => ⟨S_, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S2048x2048, .f32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S1x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048, .f32⟩
  | .hbm, ⟨28, _⟩ => ⟨S_, .f32⟩
  | .hbm, ⟨29, _⟩ => ⟨S8x2048, .f32⟩
  | .hbm, ⟨30, _⟩ => ⟨S8x2048, .f32⟩
  | .hbm, ⟨31, _⟩ => ⟨S8x1x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x1x2048, .f32⟩
  | .hbm, ⟨38, _⟩ => ⟨S8x2048x2048, .f32⟩
  | .hbm, ⟨39, _⟩ => ⟨S8x2048x2048, .f32⟩
  | .hbm, ⟨40, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_cst : Ref sig .tc := ⟨.hbm, 20, rfl⟩
abbrev main_call0_v5 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.KI.R0.lean ====
import proofs.«138723_j18210661335624_2_alg».proof.Proof.Gen.KernelIdeal.Launch
import proofs.«138723_j18210661335624_2_alg».proof.Proof.Gen.KernelIdeal.Skeleton
import proofs.«138723_j18210661335624_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x512x1024 := Rect.unit (s := S1x512x1024) ![0, 0, 0] S1x512x1024.size inb_S1x512x1024_S1x512x1024_0_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0

def out0_3 (x0 : Vec F S1x512x1024 .f32) (x1 : Vec F S1024x1024 .f32) (x2 : Vec F S1x1024 .f32) : Vec F S1x512x1024 .bf16 :=
  View.canon [⟨r0_0, k0_pay2 (View.ld x0 r0_0) (View.ld x1 r0_1) (View.ld x2 r0_2)⟩]

def out0_4 (x0 : Vec F S1x512x1024 .f32) : Vec F S1x512x1024 .bf16 :=
  View.canon [⟨r0_0, k0_pay3 (View.ld x0 r0_0)⟩]

theorem cover0_3 (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

theorem cover0_4 (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

set_option maxHeartbeats 1000000 in
theorem sound_kernel0 (c : Dev nD) (E : Set ℕ) (i : grid0.Coords)
    (arg2 : Memref sig .tc .vmem S1x512x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S1x512x1024 .bf16) (harg5 : arg5.IsWhole)
    (arg6 : Memref sig .tc .vmem S1x512x1024 .bf16) (harg6 : arg6.IsWhole)
    (x0 : Vec F S1x512x1024 .f32) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x0)) -∗ K ⟨⟩))
      ⊢ wp frame (wpE (defs₀ (F := F)) Variants.none c none) E (cc0__proj_kernel i arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  iframe H0 H1 H2
  isplitl [H3]; · iexists _; iexact H3
  isplitl [H4]; · iexists _; iexact H4
  iintro ⟨H0, H1, H2, H3, H4⟩
  isplitl [HΦ]; · iexact HΦ
  iframe

theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.KI.R1Runs.lean ====
import proofs.«138723_j18210661335624_2_alg».proof.Proof.Gen.KernelIdeal.Launch
import proofs.«138723_j18210661335624_2_alg».proof.Proof.Gen.KernelIdeal.Skeleton
import proofs.«138723_j18210661335624_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)

abbrev cond1_1 (i : grid1.Coords) : Prop := (Scalar.cmpi .ne (Scalar.extui (Scalar.cmpi .sge (BitVec.ofNat 32 (i 2).val) (BitVec.ofNat 32 (i 1).val))) 0#32) = 1#1
theorem hcond1_1 : ∀ t : Fin cfg1.N, cond1_1 (grid1.coords t) ↔ (t.val / 2) % 2 ≤ t.val % 2 :=
  (by decide +kernel : ∀ t : Fin grid1.N, cond1_1 (grid1.coords t) ↔ (t.val / 2) % 2 ≤ t.val % 2)

abbrev cond1_2 (i : grid1.Coords) : Prop := k1_cond3 i = 1#1
theorem hcond1_2 : ∀ t : Fin cfg1.N, cond1_2 (grid1.coords t) ↔ t.val % 2 = 1 :=
  (by decide +kernel : ∀ t : Fin grid1.N, cond1_2 (grid1.coords t) ↔ t.val % 2 = 1)

theorem liveAt1_0 : ∀ t : Fin cfg1.N, cfg1.idle 0 (grid1.coords t) = false := fun _ => rfl
theorem liveAt1_1 : ∀ t : Fin cfg1.N, cfg1.idle 1 (grid1.coords t) = false := fun _ => rfl
theorem idleAt1_2_A : ∀ t : Fin cfg1.N, cond1_0 (grid1.coords t) → cond1_1 (grid1.coords t) → ¬cond1_2 (grid1.coords t) → cfg1.idle 2 (grid1.coords t) = true := by decide +kernel
theorem noFlush1_2_A : ∀ t : Fin cfg1.N, cond1_0 (grid1.coords t) → cond1_1 (grid1.coords t) → ¬cond1_2 (grid1.coords t) → (cfg1.win 2).flush t = false := by decide +kernel
theorem idleAt1_2_B : ∀ t : Fin cfg1.N, cond1_0 (grid1.coords t) → ¬cond1_1 (grid1.coords t) → ¬cond1_2 (grid1.coords t) → cfg1.idle 2 (grid1.coords t) = true := by decide +kernel
theorem noFlush1_2_B : ∀ t : Fin cfg1.N, cond1_0 (grid1.coords t) → ¬cond1_1 (grid1.coords t) → ¬cond1_2 (grid1.coords t) → (cfg1.win 2).flush t = false := by decide +kernel
theorem liveAt1_2_C : ∀ t : Fin cfg1.N, ¬cond1_0 (grid1.coords t) → cond1_1 (grid1.coords t) → cond1_2 (grid1.coords t) → cfg1.idle 2 (grid1.coords t) = false := by decide +kernel

abbrev VO1_2 : View sig .tc .vmem S1x1x1024 .f32 := (Memref.whole cc1_stg2_0 : Memref sig .tc .vmem S1x1x1024 .f32).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x1024 .f32 := win1_2.stage (cfg1.slots t 2)
abbrev hs1_2 (t : Fin cfg1.N) : (ms1_2 t).IsWhole := hstage1_2 ((cfg1.slots t 2).cast nbuf1_2)
abbrev scM1_0 : Memref sig .tc .vmem S1x1024 .f32 := Memref.whole cc1_scratch0
abbrev scM1_1 : Memref sig .tc .vmem S1x1024 .f32 := Memref.whole cc1_scratch1
abbrev VS1_0 : View sig .tc .vmem S1x1024 .f32 := scM1_0.view
abbrev VS1_1 : View sig .tc .vmem S1x1024 .f32 := scM1_1.view

def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_scratch0), ((c : Thread nD τ).loc cc2_scratch0) ↦{fullShare} f) ∗ (∃ r, prngReg c r))

theorem PhiA1_eq (c : Dev nD) :
    (Pipeline.ΦA spec1 c : sProp 𝕄)
      = iprop((∃ d, owns (c : Thread nD τ) scM1_0 fullShare d) ∗ (∃ d, owns (c : Thread nD τ) scM1_1 fullShare d) ∗ Rest1 c) := by
  refine BI.equiv_iff.mp ⟨?_, ?_⟩
  · show (Pipeline.ΦA spec1 c : sProp 𝕄) ⊢ _
    unfold Pipeline.ΦA Rest1; rw [scopedRest1_eq]; simp only [scM1_0, scM1_1, owns_whole]
    iintro ⟨⟨H1, H2, H3, H4, H5, H6, H7, H8, H9, H10, H11, H12, H13, H14, H15, H16, H17, H18, H19, H20, H21⟩, Hg⟩
    iframe
  · show _ ⊢ (Pipeline.ΦA spec1 c : sProp 𝕄)
    unfold Pipeline.ΦA Rest1; rw [scopedRest1_eq]; simp only [scM1_0, scM1_1, owns_whole]
    iintro ⟨H1, H2, H3, H4, H5, H6, H7, H8, H9, H10, H11, H12, H13, H14, H15, H16, H17, H18, H19, H20, H21, Hg⟩
    iframe

section
variable (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1024 .f32) (harg7 : arg7.IsWhole)
set_option maxHeartbeats 1000000 in
noncomputable def kernelRun1_A (hc0 : cond1_0 i) (hc1 : cond1_1 i) (hc2 : ¬cond1_2 i)
    (x0 : Vec F S1x1024x1024 .bf16) (x1 : Vec F S1x1024x1024 .bf16) :
    Σ' (L2 : List (View.Piece (Elt F) S1x1x1024 .f32)), Σ' (LS0 : List (View.Piece (Elt F) S1x1024 .f32)), { LS1 : List (View.Piece (Elt F) S1x1024 .f32) //
      ∀ (xi2 : Vec F S1x1x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stats_kernel i arg3 harg3 arg4 harg4 arg5 harg5 arg6 harg6 arg7 harg7) K } := by
  refine ⟨[], ?_, ?_, fun xi2 E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg3.eq_unread hf0; obtain rfl := harg4.eq_unread hf1; obtain rfl := harg5.eq_unread hf2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    iexists _; iexact HS1

set_option maxHeartbeats 1000000 in
noncomputable def kernelRun1_B (hc0 : cond1_0 i) (hc1 : ¬cond1_1 i) (hc2 : ¬cond1_2 i)
    (x0 : Vec F S1x1024x1024 .bf16) (x1 : Vec F S1x1024x1024 .bf16) :
    Σ' (L2 : List (View.Piece (Elt F) S1x1x1024 .f32)), Σ' (LS0 : List (View.Piece (Elt F) S1x1024 .f32)), { LS1 : List (View.Piece (Elt F) S1x1024 .f32) //
      ∀ (xi2 : Vec F S1x1x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stats_kernel i arg3 harg3 arg4 harg4 arg5 harg5 arg6 harg6 arg7 harg7) K } := by
  refine ⟨[], ?_, ?_, fun xi2 E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg3.eq_unread hf0; obtain rfl := harg4.eq_unread hf1; obtain rfl := harg5.eq_unread hf2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    iexists _; iexact HS1

set_option maxHeartbeats 1000000 in
noncomputable def kernelRun1_C (hc0 : ¬cond1_0 i) (hc1 : cond1_1 i) (hc2 : cond1_2 i)
    (x0 : Vec F S1x1024x1024 .bf16) (x1 : Vec F S1x1024x1024 .bf16) (xs0 : Vec F S1x1024 .f32) (xs1 : Vec F S1x1024 .f32) :
    Σ' (L2 : List (View.Piece (Elt F) S1x1x1024 .f32)), Σ' (LS0 : List (View.Piece (Elt F) S1x1024 .f32)), { LS1 : List (View.Piece (Elt F) S1x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0 ∗ owns (c : Thread nD τ) arg7 fullShare xs1
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stats_kernel i arg3 harg3 arg4 harg4 arg5 harg5 arg6 harg6 arg7 harg7) K } := by
  refine ⟨?_, ?_, ?_, fun E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg3.eq_unread hf0; obtain rfl := harg4.eq_unread hf1; obtain rfl := harg6.eq_unread hfs0; obtain rfl := harg7.eq_unread hfs1
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HS0]; · iexists _; iexact HS0
    iexists _; iexact HS1
end

end Cert.KernelIdeal.Fr

end
-- ==== Proof.KI.R1.lean ====
import proofs.«138723_j18210661335624_2_alg».proof.Proof.KI.R1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
variable (V : (c : Dev nD) → (b : Ref sig .tc) → Buf (Elt F) ((c : Thread nD τ).loc b))

section
variable (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1024 .f32) (harg7 : arg7.IsWhole)
def out1_A_2 (hc0 : cond1_0 i) (hc1 : cond1_1 i) (hc2 : ¬cond1_2 i)
    (x0 : Vec F S1x1024x1024 .bf16) (x1 : Vec F S1x1024x1024 .bf16) : Vec F S1x1x1024 .f32 :=
  VO1_2.read (Elt F) (VO1_2.writes (Elt F) VO1_2.junk (kernelRun1_A c i arg3 harg3 arg4 harg4 arg5 harg5 arg6 harg6 arg7 harg7 hc0 hc1 hc2 x0 x1).1)

theorem scover1_A_0 (hc0 : cond1_0 i) (hc1 : cond1_1 i) (hc2 : ¬cond1_2 i)
    (x0 : Vec F S1x1024x1024 .bf16) (x1 : Vec F S1x1024x1024 .bf16) (y : S1x1024.Idx) :
    ∃ pc ∈ (kernelRun1_A c i arg3 harg3 arg4 harg4 arg5 harg5 arg6 harg6 arg7 harg7 hc0 hc1 hc2 x0 x1).2.1, y ∈ pc.1.set :=
  View.cover_of_tiledL (kernelRun1_A c i arg3 harg3 arg4 harg4 arg5 harg5 arg6 harg6 arg7 harg7 hc0 hc1 hc2 x0 x1).2.1 S1x1024.size (by sl_kernel_rfl) y

def sout1_A_0 (hc0 : cond1_0 i) (hc1 : cond1_1 i) (hc2 : ¬cond1_2 i)
    (x0 : Vec F S1x1024x1024 .bf16) (x1 : Vec F S1x1024x1024 .bf16) : Vec F S1x1024 .f32 :=
  VS1_0.read (Elt F) (VS1_0.writes (Elt F) VS1_0.junk (kernelRun1_A c i arg3 harg3 arg4 harg4 arg5 harg5 arg6 harg6 arg7 harg7 hc0 hc1 hc2 x0 x1).2.1)

theorem scover1_A_1 (hc0 : cond1_0 i) (hc1 : cond1_1 i) (hc2 : ¬cond1_2 i)
    (x0 : Vec F S1x1024x1024 .bf16) (x1 : Vec F S1x1024x1024 .bf16) (y : S1x1024.Idx) :
    ∃ pc ∈ (kernelRun1_A c i arg3 harg3 arg4 harg4 arg5 harg5 arg6 harg6 arg7 harg7 hc0 hc1 hc2 x0 x1).2.2.1, y ∈ pc.1.set :=
  View.cover_of_tiledL (kernelRun1_A c i arg3 harg3 arg4 harg4 arg5 harg5 arg6 harg6 arg7 harg7 hc0 hc1 hc2 x0 x1).2.2.1 S1x1024.size (by sl_kernel_rfl) y

def sout1_A_1 (hc0 : cond1_0 i) (hc1 : cond1_1 i) (hc2 : ¬cond1_2 i)
    (x0 : Vec F S1x1024x1024 .bf16) (x1 : Vec F S1x1024x1024 .bf16) : Vec F S1x1024 .f32 :=
  VS1_1.read (Elt F) (VS1_1.writes (Elt F) VS1_1.junk (kernelRun1_A c i arg3 harg3 arg4 harg4 arg5 harg5 arg6 harg6 arg7 harg7 hc0 hc1 hc2 x0 x1).2.2.1)

def out1_B_2 (hc0 : cond1_0 i) (hc1 : ¬cond1_1 i) (hc2 : ¬cond1_2 i)
    (x0 : Vec F S1x1024x1024 .bf16) (x1 : Vec F S1x1024x1024 .bf16) : Vec F S1x1x1024 .f32 :=
  VO1_2.read (Elt F) (VO1_2.writes (Elt F) VO1_2.junk (kernelRun1_B c i arg3 harg3 arg4 harg4 arg5 harg5 arg6 harg6 arg7 harg7 hc0 hc1 hc2 x0 x1).1)

theorem scover1_B_0 (hc0 : cond1_0 i) (hc1 : ¬cond1_1 i) (hc2 : ¬cond1_2 i)
    (x0 : Vec F S1x1024x1024 .bf16) (x1 : Vec F S1x1024x1024 .bf16) (y : S1x1024.Idx) :
    ∃ pc ∈ (kernelRun1_B c i arg3 harg3 arg4 harg4 arg5 harg5 arg6 harg6 arg7 harg7 hc0 hc1 hc2 x0 x1).2.1, y ∈ pc.1.set :=
  View.cover_of_tiledL (kernelRun1_B c i arg3 harg3 arg4 harg4 arg5 harg5 arg6 harg6 arg7 harg7 hc0 hc1 hc2 x0 x1).2.1 S1x1024.size (by sl_kernel_rfl) y

def sout1_B_0 (hc0 : cond1_0 i) (hc1 : ¬cond1_1 i) (hc2 : ¬cond1_2 i)
    (x0 : Vec F S1x1024x1024 .bf16) (x1 : Vec F S1x1024x1024 .bf16) : Vec F S1x1024 .f32 :=
  VS1_0.read (Elt F) (VS1_0.writes (Elt F) VS1_0.junk (kernelRun1_B c i arg3 harg3 arg4 harg4 arg5 harg5 arg6 harg6 arg7 harg7 hc0 hc1 hc2 x0 x1).2.1)

theorem scover1_B_1 (hc0 : cond1_0 i) (hc1 : ¬cond1_1 i) (hc2 : ¬cond1_2 i)
    (x0 : Vec F S1x1024x1024 .bf16) (x1 : Vec F S1x1024x1024 .bf16) (y : S1x1024.Idx) :
    ∃ pc ∈ (kernelRun1_B c i arg3 harg3 arg4 harg4 arg5 harg5 arg6 harg6 arg7 harg7 hc0 hc1 hc2 x0 x1).2.2.1, y ∈ pc.1.set :=
  View.cover_of_tiledL (kernelRun1_B c i arg3 harg3 arg4 harg4 arg5 harg5 arg6 harg6 arg7 harg7 hc0 hc1 hc2 x0 x1).2.2.1 S1x1024.size (by sl_kernel_rfl) y

def sout1_B_1 (hc0 : cond1_0 i) (hc1 : ¬cond1_1 i) (hc2 : ¬cond1_2 i)
    (x0 : Vec F S1x1024x1024 .bf16) (x1 : Vec F S1x1024x1024 .bf16) : Vec F S1x1024 .f32 :=
  VS1_1.read (Elt F) (VS1_1.writes (Elt F) VS1_1.junk (kernelRun1_B c i arg3 harg3 arg4 harg4 arg5 harg5 arg6 harg6 arg7 harg7 hc0 hc1 hc2 x0 x1).2.2.1)

theorem cover1_C_2 (hc0 : ¬cond1_0 i) (hc1 : cond1_1 i) (hc2 : cond1_2 i)
    (x0 : Vec F S1x1024x1024 .bf16) (x1 : Vec F S1x1024x1024 .bf16) (xs0 : Vec F S1x1024 .f32) (xs1 : Vec F S1x1024 .f32) (y : S1x1x1024.Idx) :
    ∃ pc ∈ (kernelRun1_C c i arg3 harg3 arg4 harg4 arg5 harg5 arg6 harg6 arg7 harg7 hc0 hc1 hc2 x0 x1 xs0 xs1).1, y ∈ pc.1.set :=
  View.cover_of_tiledL (kernelRun1_C c i arg3 harg3 arg4 harg4 arg5 harg5 arg6 harg6 arg7 harg7 hc0 hc1 hc2 x0 x1 xs0 xs1).1 S1x1x1024.size (by sl_kernel_rfl) y

def out1_C_2 (hc0 : ¬cond1_0 i) (hc1 : cond1_1 i) (hc2 : cond1_2 i)
    (x0 : Vec F S1x1024x1024 .bf16) (x1 : Vec F S1x1024x1024 .bf16) (xs0 : Vec F S1x1024 .f32) (xs1 : Vec F S1x1024 .f32) : Vec F S1x1x1024 .f32 :=
  VO1_2.read (Elt F) (VO1_2.writes (Elt F) VO1_2.junk (kernelRun1_C c i arg3 harg3 arg4 harg4 arg5 harg5 arg6 harg6 arg7 harg7 hc0 hc1 hc2 x0 x1 xs0 xs1).1)

theorem scover1_C_0 (hc0 : ¬cond1_0 i) (hc1 : cond1_1 i) (hc2 : cond1_2 i)
    (x0 : Vec F S1x1024x1024 .bf16) (x1 : Vec F S1x1024x1024 .bf16) (xs0 : Vec F S1x1024 .f32) (xs1 : Vec F S1x1024 .f32) (y : S1x1024.Idx) :
    ∃ pc ∈ (kernelRun1_C c i arg3 harg3 arg4 harg4 arg5 harg5 arg6 harg6 arg7 harg7 hc0 hc1 hc2 x0 x1 xs0 xs1).2.1, y ∈ pc.1.set :=
  View.cover_of_tiledL (kernelRun1_C c i arg3 harg3 arg4 harg4 arg5 harg5 arg6 harg6 arg7 harg7 hc0 hc1 hc2 x0 x1 xs0 xs1).2.1 S1x1024.size (by sl_kernel_rfl) y

def sout1_C_0 (hc0 : ¬cond1_0 i) (hc1 : cond1_1 i) (hc2 : cond1_2 i)
    (x0 : Vec F S1x1024x1024 .bf16) (x1 : Vec F S1x1024x1024 .bf16) (xs0 : Vec F S1x1024 .f32) (xs1 : Vec F S1x1024 .f32) : Vec F S1x1024 .f32 :=
  VS1_0.read (Elt F) (VS1_0.writes (Elt F) VS1_0.junk (kernelRun1_C c i arg3 harg3 arg4 harg4 arg5 harg5 arg6 harg6 arg7 harg7 hc0 hc1 hc2 x0 x1 xs0 xs1).2.1)

theorem scover1_C_1 (hc0 : ¬cond1_0 i) (hc1 : cond1_1 i) (hc2 : cond1_2 i)
    (x0 : Vec F S1x1024x1024 .bf16) (x1 : Vec F S1x1024x1024 .bf16) (xs0 : Vec F S1x1024 .f32) (xs1 : Vec F S1x1024 .f32) (y : S1x1024.Idx) :
    ∃ pc ∈ (kernelRun1_C c i arg3 harg3 arg4 harg4 arg5 harg5 arg6 harg6 arg7 harg7 hc0 hc1 hc2 x0 x1 xs0 xs1).2.2.1, y ∈ pc.1.set :=
  View.cover_of_tiledL (kernelRun1_C c i arg3 harg3 arg4 harg4 arg5 harg5 arg6 harg6 arg7 harg7 hc0 hc1 hc2 x0 x1 xs0 xs1).2.2.1 S1x1024.size (by sl_kernel_rfl) y

def sout1_C_1 (hc0 : ¬cond1_0 i) (hc1 : cond1_1 i) (hc2 : cond1_2 i)
    (x0 : Vec F S1x1024x1024 .bf16) (x1 : Vec F S1x1024x1024 .bf16) (xs0 : Vec F S1x1024 .f32) (xs1 : Vec F S1x1024 .f32) : Vec F S1x1024 .f32 :=
  VS1_1.read (Elt F) (VS1_1.writes (Elt F) VS1_1.junk (kernelRun1_C c i arg3 harg3 arg4 harg4 arg5 harg5 arg6 harg6 arg7 harg7 hc0 hc1 hc2 x0 x1 xs0 xs1).2.2.1)
end

def outsAt1 (c : Dev nD) : (n : ℕ) → n < cfg1.N → Vec F S1x1x1024 .f32 × Vec F S1x1024 .f32 × Vec F S1x1024 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) ((hcond1_1 ⟨0, hn⟩).mpr (by show (0 : ℕ) / 2 % 2 ≤ 0 % 2; omega)) (fun h => (fun h => by (try dsimp only at h); omega) ((hcond1_2 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) ((hcond1_1 ⟨0, hn⟩).mpr (by show (0 : ℕ) / 2 % 2 ≤ 0 % 2; omega)) (fun h => (fun h => by (try dsimp only at h); omega) ((hcond1_2 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) ((hcond1_1 ⟨0, hn⟩).mpr (by show (0 : ℕ) / 2 % 2 ≤ 0 % 2; omega)) (fun h => (fun h => by (try dsimp only at h); omega) ((hcond1_2 ⟨0, hn⟩).mp h)) (iblk1 V c 0 ⟨0, hn⟩) (iblk1 V c 1 ⟨0, hn⟩))
  | n + 1, hn =>
    if h0 : (n + 1) % 2 = 0 then
      if h1 : ((n + 1) / 2) % 2 ≤ (n + 1) % 2 then
        if h2 : (n + 1) % 2 = 1 then
          False.elim (by omega)
        else
          (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) ((hcond1_1 ⟨n + 1, hn⟩).mpr h1) (fun h => h2 ((hcond1_2 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) ((hcond1_1 ⟨n + 1, hn⟩).mpr h1) (fun h => h2 ((hcond1_2 ⟨n + 1, hn⟩).mp h)) (iblk1 V c 0 ⟨n + 1, hn⟩) (iblk1 V c 1 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) ((hcond1_1 ⟨n + 1, hn⟩).mpr h1) (fun h => h2 ((hcond1_2 ⟨n + 1, hn⟩).mp h)) (iblk1 V c 0 ⟨n + 1, hn⟩) (iblk1 V c 1 ⟨n + 1, hn⟩))
      else
        if h2 : (n + 1) % 2 = 1 then
          False.elim (by omega)
        else
          (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩), sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩), sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩))
    else
      if h1 : ((n + 1) / 2) % 2 ≤ (n + 1) % 2 then
        if h2 : (n + 1) % 2 = 1 then
          (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (outsAt1 c n (Nat.lt_of_succ_lt hn)).2.1 (outsAt1 c n (Nat.lt_of_succ_lt hn)).2.2)
        else
          False.elim (by omega)
      else
        False.elim (by omega)

theorem outsAt1_A (c : Dev nD) (t : Fin cfg1.N) (h0 : t.val % 2 = 0) (h1 : (t.val / 2) % 2 ≤ t.val % 2) (h2 : ¬t.val % 2 = 1) :
    outsAt1 V c t.val t.isLt = (out1_A_2 c (grid1.coords t) (ms1_0 t) (hs1_0 t) (ms1_1 t) (hs1_1 t) (ms1_2 t) (hs1_2 t) scM1_0 (Memref.isWhole_whole _) scM1_1 (Memref.isWhole_whole _) ((hcond1_0 t).mpr h0) ((hcond1_1 t).mpr h1) (fun h => h2 ((hcond1_2 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) ((hcond1_1 t).mpr h1) (fun h => h2 ((hcond1_2 t).mp h)) (iblk1 V c 0 t) (iblk1 V c 1 t), sout1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) ((hcond1_1 t).mpr h1) (fun h => h2 ((hcond1_2 t).mp h)) (iblk1 V c 0 t) (iblk1 V c 1 t)) := by
  obtain ⟨n, hn⟩ := t
  cases n with
  | zero => exact rfl
  | succ n => exact (dif_pos h0).trans ((dif_pos h1).trans ((dif_neg h2).trans rfl))

theorem outsAt1_B (c : Dev nD) (t : Fin cfg1.N) (h0 : t.val % 2 = 0) (h1 : ¬(t.val / 2) % 2 ≤ t.val % 2) (h2 : ¬t.val % 2 = 1) :
    outsAt1 V c t.val t.isLt = (out1_B_2 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (fun h => h2 ((hcond1_2 t).mp h)) (iblk1 V c 0 t) (iblk1 V c 1 t), sout1_B_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (fun h => h2 ((hcond1_2 t).mp h)) (iblk1 V c 0 t) (iblk1 V c 1 t), sout1_B_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (fun h => h2 ((hcond1_2 t).mp h)) (iblk1 V c 0 t) (iblk1 V c 1 t)) := by
  obtain ⟨n, hn⟩ := t
  cases n with
  | zero => exact (by exfalso; (try dsimp only at h1); omega)
  | succ n => exact (dif_pos h0).trans ((dif_neg h1).trans ((dif_neg h2).trans rfl))

theorem outsAt1_C (c : Dev nD) (t : Fin cfg1.N) (h0 : ¬t.val % 2 = 0) (h1 : (t.val / 2) % 2 ≤ t.val % 2) (h2 : t.val % 2 = 1) :
    outsAt1 V c t.val t.isLt = (out1_C_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) ((hcond1_2 t).mpr h2) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) ((hcond1_2 t).mpr h2) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) ((hcond1_2 t).mpr h2) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); omega)
  | succ n => exact (dif_neg h0).trans ((dif_pos h1).trans ((dif_pos h2).trans rfl))

def PhiS1 (c : Dev nD) : (n : ℕ) → n ≤ cfg1.N → sProp 𝕄
  | 0, _ => Pipeline.ΦA spec1 c
  | n + 1, hn => iprop(owns (c : Thread nD τ) scM1_0 fullShare ((outsAt1 V c n hn).2.1) ∗ owns (c : Thread nD τ) scM1_1 fullShare ((outsAt1 V c n hn).2.2) ∗ Rest1 c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare ((outsAt1 V c n hn).2.1) ∗ owns (c : Thread nD τ) scM1_1 fullShare ((outsAt1 V c n hn).2.2) ∗ Rest1 c) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2.1) ∗ owns (c : Thread nD τ) scM1_1 fullShare ((outsAt1 V c (n - 1) (by omega)).2.2) ∗ Rest1 c) := by
  cases n with
  | zero => exact absurd rfl hz
  | succ n => rfl

theorem PhiS1_any (c : Dev nD) (n : ℕ) (h : n ≤ cfg1.N) :
    PhiS1 V c n h ⊢ (iprop((∃ d, owns (c : Thread nD τ) scM1_0 fullShare d) ∗ (∃ d, owns (c : Thread nD τ) scM1_1 fullShare d) ∗ Rest1 c) : sProp 𝕄) := by
  cases n with
  | zero =>
    rw [PhiS1_zero V c 0 h rfl, PhiA1_eq]
    try exact Idealize.SL.BI.Entails.refl _
  | succ n =>
    rw [PhiS1_succ]
    iintro ⟨HS0, HS1, HR⟩
    isplitl [HS0]; · iexists _; iexact HS0
    isplitl [HS1]; · iexists _; iexact HS1
    iexact HR

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q := fun | ⟨0, _⟩ => fullShare.left | ⟨1, _⟩ => fullShare.right | ⟨2, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  by_cases h0 : t.val % 2 = 0
  · by_cases h1 : (t.val / 2) % 2 ≤ t.val % 2
    · by_cases h2 : t.val % 2 = 1
      · exfalso; omega
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [Dat.leavesExact_idle (dat1 V c) 2 t (idleAt1_2_A t ((hcond1_0 t).mpr h0) ((hcond1_1 t).mpr h1) (fun h => h2 ((hcond1_2 t).mp h))) (noFlush1_2_A t ((hcond1_0 t).mpr h0) ((hcond1_1 t).mpr h1) (fun h => h2 ((hcond1_2 t).mp h)))]
        rw [outsAt1_A V c t h0 h1 h2]
        unfold sout1_A_0 sout1_A_1; (try dsimp only)
        rw [PhiS1_castSucc V c t]
        iintro ⟨HΦ, Ho, ⟨%d0, H0⟩, ⟨%d1, H1⟩, ⟨%d2, H2⟩⟩
        ihave HΦ' := (PhiS1_any V c _ _) $$ HΦ
        icases HΦ' with ⟨HS0, HS1, HR⟩
        iapply ((kernelRun1_A c (grid1.coords t) _ _ _ _ _ _ _ _ _ _ ((hcond1_0 t).mpr h0) ((hcond1_1 t).mpr h1) (fun h => h2 ((hcond1_2 t).mp h)) (iblk1 V c 0 t) (iblk1 V c 1 t)).2.2.2 _ Set.univ _)
        iframe H0 H1 H2 HS0 HS1
        iintro ⟨H0, H1, H2, ⟨%es0, HS0⟩, ⟨%es1, HS1⟩⟩
        isplitl [HS0 HS1 HR]
        · isplitl [HS0]
          · unfold owns; iexists _; isplitr
            swap; · iexact HS0
            ipureintro; exact View.read_writes_of_cover _ _ _ _ _ (scover1_A_0 c _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _)
          iexact HR
        iframe Ho H0 H1
        iexists _; iexact H2
    · by_cases h2 : t.val % 2 = 1
      · exfalso; omega
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [Dat.leavesExact_idle (dat1 V c) 2 t (idleAt1_2_B t ((hcond1_0 t).mpr h0) (fun h => h1 ((hcond1_1 t).mp h)) (fun h => h2 ((hcond1_2 t).mp h))) (noFlush1_2_B t ((hcond1_0 t).mpr h0) (fun h => h1 ((hcond1_1 t).mp h)) (fun h => h2 ((hcond1_2 t).mp h)))]
        rw [outsAt1_B V c t h0 h1 h2]
        unfold sout1_B_0 sout1_B_1; (try dsimp only)
        rw [PhiS1_castSucc V c t]
        iintro ⟨HΦ, Ho, ⟨%d0, H0⟩, ⟨%d1, H1⟩, ⟨%d2, H2⟩⟩
        ihave HΦ' := (PhiS1_any V c _ _) $$ HΦ
        icases HΦ' with ⟨HS0, HS1, HR⟩
        iapply ((kernelRun1_B c (grid1.coords t) _ _ _ _ _ _ _ _ _ _ ((hcond1_0 t).mpr h0) (fun h => h1 ((hcond1_1 t).mp h)) (fun h => h2 ((hcond1_2 t).mp h)) (iblk1 V c 0 t) (iblk1 V c 1 t)).2.2.2 _ Set.univ _)
        iframe H0 H1 H2 HS0 HS1
        iintro ⟨H0, H1, H2, ⟨%es0, HS0⟩, ⟨%es1, HS1⟩⟩
        isplitl [HS0 HS1 HR]
        · isplitl [HS0]
          · unfold owns; iexists _; isplitr
            swap; · iexact HS0
            ipureintro; exact View.read_writes_of_cover _ _ _ _ _ (scover1_B_0 c _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _)
          iexact HR
        iframe Ho H0 H1
        iexists _; iexact H2
  · by_cases h1 : (t.val / 2) % 2 ≤ t.val % 2
    · by_cases h2 : t.val % 2 = 1
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2_C t (fun h => h0 ((hcond1_0 t).mp h)) ((hcond1_1 t).mpr h1) ((hcond1_2 t).mpr h2)], after1_2]
        rw [outsAt1_C V c t h0 h1 h2]
        unfold out1_C_2 sout1_C_0 sout1_C_1; (try dsimp only)
        have hz : t.val ≠ 0 := by omega
        rw [PhiS1_castSucc V c t, PhiS1_pos V c _ _ hz]
        iintro ⟨⟨HS0, HS1, HR⟩, Ho, ⟨%d0, H0⟩, ⟨%d1, H1⟩, ⟨%d2, H2⟩⟩
        iapply ((kernelRun1_C c (grid1.coords t) _ _ _ _ _ _ _ _ _ _ (fun h => h0 ((hcond1_0 t).mp h)) ((hcond1_1 t).mpr h1) ((hcond1_2 t).mpr h2) (iblk1 V c 0 t) (iblk1 V c 1 t) _ _).2.2.2 Set.univ _)
        iframe H0 H1
        isplitl [H2]; · iexists _; iexact H2
        iframe HS0 HS1
        iintro ⟨H0, H1, ⟨%e2, H2⟩, ⟨%es0, HS0⟩, ⟨%es1, HS1⟩⟩
        isplitl [HS0 HS1 HR]
        · isplitl [HS0]
          · unfold owns; iexists _; isplitr
            swap; · iexact HS0
            ipureintro; exact View.read_writes_of_cover _ _ _ _ _ (scover1_C_0 c _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _)
          iexact HR
        iframe Ho H0 H1
        unfold owns; iexists _; isplitr
        swap; · iexact H2
        ipureintro; exact View.read_writes_of_cover _ _ _ _ _ (cover1_C_2 c _ _ _ _ _ _ _ _ _ _ _ _ _ _ _ _ _ _)
      · exfalso; omega
    · exfalso; omega

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) : (dat1 V c).Φ t ⊢ Pipeline.ΦA spec1 c := by
  rw [show (dat1 V c).Φ t = PhiS1 V c t.val (Nat.le_of_lt_succ t.isLt) from rfl, PhiA1_eq]
  exact PhiS1_any V c _ _

theorem hout1 (c : Dev nD) : (dat1 V c).Φ (Fin.last cfg1.N) ⊢ Pipeline.ΦA spec1 c :=
  Phi_out1 V c _

end Cert.KernelIdeal.Fr

end
-- ==== Proof.KI.R2Runs.lean ====
import proofs.«138723_j18210661335624_2_alg».proof.Proof.Gen.KernelIdeal.Launch
import proofs.«138723_j18210661335624_2_alg».proof.Proof.Gen.KernelIdeal.Skeleton
import proofs.«138723_j18210661335624_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

abbrev cond2_1 (i : grid2.Coords) : Prop := (Scalar.cmpi .ne (Scalar.extui (Scalar.cmpi .slt (Scalar.muli (BitVec.ofNat 32 (i 2).val) 512#32) (Scalar.muli (Scalar.addi (BitVec.ofNat 32 (i 1).val) 1#32) 1024#32))) 0#32) = 1#1
theorem hcond2_1 : ∀ t : Fin cfg2.N, cond2_1 (grid2.coords t) ↔ (t.val % 4 < 2 ∨ (t.val / 4) % 2 = 1) :=
  (by decide +kernel : ∀ t : Fin grid2.N, cond2_1 (grid2.coords t) ↔ (t.val % 4 < 2 ∨ (t.val / 4) % 2 = 1))

abbrev cond2_2 (i : grid2.Coords) : Prop := k2_cond3 i = 1#1
theorem hcond2_2 : ∀ t : Fin cfg2.N, cond2_2 (grid2.coords t) ↔ t.val % 4 = 3 :=
  (by decide +kernel : ∀ t : Fin grid2.N, cond2_2 (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem idleAt2_4_A : ∀ t : Fin cfg2.N, cond2_0 (grid2.coords t) → cond2_1 (grid2.coords t) → ¬cond2_2 (grid2.coords t) → cfg2.idle 4 (grid2.coords t) = true := by decide +kernel
theorem noFlush2_4_A : ∀ t : Fin cfg2.N, cond2_0 (grid2.coords t) → cond2_1 (grid2.coords t) → ¬cond2_2 (grid2.coords t) → (cfg2.win 4).flush t = false := by decide +kernel
theorem idleAt2_4_B : ∀ t : Fin cfg2.N, ¬cond2_0 (grid2.coords t) → cond2_1 (grid2.coords t) → ¬cond2_2 (grid2.coords t) → cfg2.idle 4 (grid2.coords t) = true := by decide +kernel
theorem noFlush2_4_B : ∀ t : Fin cfg2.N, ¬cond2_0 (grid2.coords t) → cond2_1 (grid2.coords t) → ¬cond2_2 (grid2.coords t) → (cfg2.win 4).flush t = false := by decide +kernel
theorem idleAt2_4_C : ∀ t : Fin cfg2.N, ¬cond2_0 (grid2.coords t) → ¬cond2_1 (grid2.coords t) → ¬cond2_2 (grid2.coords t) → cfg2.idle 4 (grid2.coords t) = true := by decide +kernel
theorem noFlush2_4_C : ∀ t : Fin cfg2.N, ¬cond2_0 (grid2.coords t) → ¬cond2_1 (grid2.coords t) → ¬cond2_2 (grid2.coords t) → (cfg2.win 4).flush t = false := by decide +kernel
theorem liveAt2_4_D : ∀ t : Fin cfg2.N, ¬cond2_0 (grid2.coords t) → ¬cond2_1 (grid2.coords t) → cond2_2 (grid2.coords t) → cfg2.idle 4 (grid2.coords t) = false := by decide +kernel
theorem liveAt2_4_E : ∀ t : Fin cfg2.N, ¬cond2_0 (grid2.coords t) → cond2_1 (grid2.coords t) → cond2_2 (grid2.coords t) → cfg2.idle 4 (grid2.coords t) = false := by decide +kernel

abbrev VO2_4 : View sig .tc .vmem S1x1024x1024 .f32 := (Memref.whole cc2_stg4_0 : Memref sig .tc .vmem S1x1024x1024 .f32).view
abbrev ms2_0 (t : Fin cfg2.N) : Memref sig .tc .vmem S1x1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x512x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024x1024 .f32 := win2_4.stage (cfg2.slots t 4)
abbrev hs2_4 (t : Fin cfg2.N) : (ms2_4 t).IsWhole := hstage2_4 ((cfg2.slots t 4).cast nbuf2_4)
abbrev scM2_0 : Memref sig .tc .vmem S1024x1024 .f32 := Memref.whole cc2_scratch0
abbrev VS2_0 : View sig .tc .vmem S1024x1024 .f32 := scM2_0.view

def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

theorem PhiA2_elim (c : Dev nD) :
    (Pipeline.ΦA spec2 c : sProp 𝕄) ⊢ iprop(rest2 (F := F) c ∗ (∃ d, owns (c : Thread nD τ) scM2_0 fullShare d) ∗ (∃ r, prngReg c r)) := by
  unfold Pipeline.ΦA rest2; rw [scopedRest2_eq]; simp only [scM2_0, owns_whole]
  iintro ⟨⟨H1, H2, H3, H4, H5, H6, H7, H8, H9, H10, H11, H12, H13, H14, H15, H16, HS⟩, Hg⟩
  isplitl [H1 H2 H3 H4 H5 H6 H7 H8 H9 H10 H11 H12 H13 H14 H15 H16]
  ·
    iframe
  isplitl [HS]; · iexact HS
  iexact Hg

theorem PhiA2_intro (c : Dev nD) :
    iprop(rest2 (F := F) c ∗ (∃ d, owns (c : Thread nD τ) scM2_0 fullShare d) ∗ (∃ r, prngReg c r)) ⊢ (Pipeline.ΦA spec2 c : sProp 𝕄) := by
  unfold Pipeline.ΦA rest2; rw [scopedRest2_eq]; simp only [scM2_0, owns_whole]
  iintro ⟨⟨H1, H2, H3, H4, H5, H6, H7, H8, H9, H10, H11, H12, H13, H14, H15, H16⟩, HS, Hg⟩
  isplitr [Hg]
  ·
    iframe
  iexact Hg

end Cert.KernelIdeal.Fr

end
-- ==== Proof.KI.R2RunA.lean ====
import proofs.«138723_j18210661335624_2_alg».proof.Proof.KI.R2Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
noncomputable def kernelRun2_A (c : Dev nD) (i : grid2.Coords) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond2_0 i) (hc1 : cond2_1 i) (hc2 : ¬cond2_2 i)
    (x0 : Vec F S1x1024x1024 .bf16) (x1 : Vec F S1x512x1024 .bf16) (x2 : Vec F S1x1x512 .f32) (x3 : Vec F S1x512x1024 .bf16) :
    Σ' (L4 : List (View.Piece (Elt F) S1x1024x1024 .f32)), { LS0 : List (View.Piece (Elt F) S1024x1024 .f32) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__out_kernel i arg3 harg3 arg4 harg4 arg5 harg5 arg6 harg6 arg7 harg7 arg8 harg8) K } := by
  refine ⟨[], ?_, fun xi4 E K => ?run⟩
  case run =>
    simp only [cc2__out_kernel_eq_skeleton]; unfold cc2__out_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Fr

end
-- ==== Proof.KI.R2RunB.lean ====
import proofs.«138723_j18210661335624_2_alg».proof.Proof.KI.R2RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
noncomputable def kernelRun2_B (c : Dev nD) (i : grid2.Coords) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond2_0 i) (hc1 : cond2_1 i) (hc2 : ¬cond2_2 i)
    (x0 : Vec F S1x1024x1024 .bf16) (x1 : Vec F S1x512x1024 .bf16) (x2 : Vec F S1x1x512 .f32) (x3 : Vec F S1x512x1024 .bf16) (xs0 : Vec F S1024x1024 .f32) :
    Σ' (L4 : List (View.Piece (Elt F) S1x1024x1024 .f32)), { LS0 : List (View.Piece (Elt F) S1024x1024 .f32) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__out_kernel i arg3 harg3 arg4 harg4 arg5 harg5 arg6 harg6 arg7 harg7 arg8 harg8) K } := by
  refine ⟨[], ?_, fun xi4 E K => ?run⟩
  case run =>
    simp only [cc2__out_kernel_eq_skeleton]; unfold cc2__out_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Fr

end
-- ==== Proof.KI.R2RunC.lean ====
import proofs.«138723_j18210661335624_2_alg».proof.Proof.KI.R2RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
noncomputable def kernelRun2_C (c : Dev nD) (i : grid2.Coords) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond2_0 i) (hc1 : ¬cond2_1 i) (hc2 : ¬cond2_2 i)
    (x0 : Vec F S1x1024x1024 .bf16) (x1 : Vec F S1x512x1024 .bf16) (x2 : Vec F S1x1x512 .f32) (x3 : Vec F S1x512x1024 .bf16) (xs0 : Vec F S1024x1024 .f32) :
    Σ' (L4 : List (View.Piece (Elt F) S1x1024x1024 .f32)), { LS0 : List (View.Piece (Elt F) S1024x1024 .f32) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0) -∗ K ⟨⟩))
          ⊢ wp frame (wpE (defs₀ (F := F)) Variants.none c none) E (cc2__out_kernel i arg3 harg3 arg4 harg4 arg5 harg5 arg6 harg6 arg7 harg7 arg8 harg8) K } := by
  refine ⟨[], [], fun xi4 E K => ?run⟩
  case run =>
    simp only [cc2__out_kernel_eq_skeleton]; unfold cc2__out_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; isplitr; · ipureintro; exact harg8.read_unread _
    iexact HS0

end Cert.KernelIdeal.Fr

end
-- ==== Proof.KI.R2RunD.lean ====
import proofs.«138723_j18210661335624_2_alg».proof.Proof.KI.R2RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
noncomputable def kernelRun2_D (c : Dev nD) (i : grid2.Coords) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond2_0 i) (hc1 : ¬cond2_1 i) (hc2 : cond2_2 i)
    (x0 : Vec F S1x1024x1024 .bf16) (x1 : Vec F S1x512x1024 .bf16) (x2 : Vec F S1x1x512 .f32) (x3 : Vec F S1x512x1024 .bf16) (xs0 : Vec F S1024x1024 .f32) :
    Σ' (L4 : List (View.Piece (Elt F) S1x1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ owns (c : Thread nD τ) arg8 fullShare xs0) -∗ K ⟨⟩))
          ⊢ wp frame (wpE (defs₀ (F := F)) Variants.none c none) E (cc2__out_kernel i arg3 harg3 arg4 harg4 arg5 harg5 arg6 harg6 arg7 harg7 arg8 harg8) K } := by
  refine ⟨?_, [], fun E K => ?run⟩
  case run =>
    simp only [cc2__out_kernel_eq_skeleton]; unfold cc2__out_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; isplitr; · ipureintro; exact harg8.read_unread _
    iexact HS0

end Cert.KernelIdeal.Fr

end
-- ==== Proof.KI.R2RunE.lean ====
import proofs.«138723_j18210661335624_2_alg».proof.Proof.KI.R2RunD

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
noncomputable def kernelRun2_E (c : Dev nD) (i : grid2.Coords) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond2_0 i) (hc1 : cond2_1 i) (hc2 : cond2_2 i)
    (x0 : Vec F S1x1024x1024 .bf16) (x1 : Vec F S1x512x1024 .bf16) (x2 : Vec F S1x1x512 .f32) (x3 : Vec F S1x512x1024 .bf16) (xs0 : Vec F S1024x1024 .f32) :
    Σ' (L4 : List (View.Piece (Elt F) S1x1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc2__out_kernel i arg3 harg3 arg4 harg4 arg5 harg5 arg6 harg6 arg7 harg7 arg8 harg8) K } := by
  refine ⟨?_, ?_, fun E K => ?run⟩
  case run =>
    simp only [cc2__out_kernel_eq_skeleton]; unfold cc2__out_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Fr

end
-- ==== Proof.KI.R2.lean ====
import proofs.«138723_j18210661335624_2_alg».proof.Proof.KI.R2RunE

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def junkOut2 : Vec F S1x1024x1024 .f32 := VO2_4.read (Elt F) VO2_4.junk

section
variable (c : Dev nD) (i : grid2.Coords) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole)
theorem scover2_A_0 (hc0 : cond2_0 i) (hc1 : cond2_1 i) (hc2 : ¬cond2_2 i)
    (x0 : Vec F S1x1024x1024 .bf16) (x1 : Vec F S1x512x1024 .bf16) (x2 : Vec F S1x1x512 .f32) (x3 : Vec F S1x512x1024 .bf16) (y : S1024x1024.Idx) :
    ∃ pc ∈ (kernelRun2_A c i arg3 harg3 arg4 harg4 arg5 harg5 arg6 harg6 arg7 harg7 arg8 harg8 hc0 hc1 hc2 x0 x1 x2 x3).2.1, y ∈ pc.1.set :=
  View.cover_of_tiledL (kernelRun2_A c i arg3 harg3 arg4 harg4 arg5 harg5 arg6 harg6 arg7 harg7 arg8 harg8 hc0 hc1 hc2 x0 x1 x2 x3).2.1 S1024x1024.size (by sl_kernel_rfl) y

def sout2_A_0 (hc0 : cond2_0 i) (hc1 : cond2_1 i) (hc2 : ¬cond2_2 i)
    (x0 : Vec F S1x1024x1024 .bf16) (x1 : Vec F S1x512x1024 .bf16) (x2 : Vec F S1x1x512 .f32) (x3 : Vec F S1x512x1024 .bf16) : Vec F S1024x1024 .f32 :=
  VS2_0.read (Elt F) (VS2_0.writes (Elt F) VS2_0.junk (kernelRun2_A c i arg3 harg3 arg4 harg4 arg5 harg5 arg6 harg6 arg7 harg7 arg8 harg8 hc0 hc1 hc2 x0 x1 x2 x3).2.1)

theorem scover2_B_0 (hc0 : ¬cond2_0 i) (hc1 : cond2_1 i) (hc2 : ¬cond2_2 i)
    (x0 : Vec F S1x1024x1024 .bf16) (x1 : Vec F S1x512x1024 .bf16) (x2 : Vec F S1x1x512 .f32) (x3 : Vec F S1x512x1024 .bf16) (xs0 : Vec F S1024x1024 .f32) (y : S1024x1024.Idx) :
    ∃ pc ∈ (kernelRun2_B c i arg3 harg3 arg4 harg4 arg5 harg5 arg6 harg6 arg7 harg7 arg8 harg8 hc0 hc1 hc2 x0 x1 x2 x3 xs0).2.1, y ∈ pc.1.set :=
  View.cover_of_tiledL (kernelRun2_B c i arg3 harg3 arg4 harg4 arg5 harg5 arg6 harg6 arg7 harg7 arg8 harg8 hc0 hc1 hc2 x0 x1 x2 x3 xs0).2.1 S1024x1024.size (by sl_kernel_rfl) y

def sout2_B_0 (hc0 : ¬cond2_0 i) (hc1 : cond2_1 i) (hc2 : ¬cond2_2 i)
    (x0 : Vec F S1x1024x1024 .bf16) (x1 : Vec F S1x512x1024 .bf16) (x2 : Vec F S1x1x512 .f32) (x3 : Vec F S1x512x1024 .bf16) (xs0 : Vec F S1024x1024 .f32) : Vec F S1024x1024 .f32 :=
  VS2_0.read (Elt F) (VS2_0.writes (Elt F) VS2_0.junk (kernelRun2_B c i arg3 harg3 arg4 harg4 arg5 harg5 arg6 harg6 arg7 harg7 arg8 harg8 hc0 hc1 hc2 x0 x1 x2 x3 xs0).2.1)

theorem cover2_D_4 (hc0 : ¬cond2_0 i) (hc1 : ¬cond2_1 i) (hc2 : cond2_2 i)
    (x0 : Vec F S1x1024x1024 .bf16) (x1 : Vec F S1x512x1024 .bf16) (x2 : Vec F S1x1x512 .f32) (x3 : Vec F S1x512x1024 .bf16) (xs0 : Vec F S1024x1024 .f32) (y : S1x1024x1024.Idx) :
    ∃ pc ∈ (kernelRun2_D c i arg3 harg3 arg4 harg4 arg5 harg5 arg6 harg6 arg7 harg7 arg8 harg8 hc0 hc1 hc2 x0 x1 x2 x3 xs0).1, y ∈ pc.1.set :=
  View.cover_of_tiledL (kernelRun2_D c i arg3 harg3 arg4 harg4 arg5 harg5 arg6 harg6 arg7 harg7 arg8 harg8 hc0 hc1 hc2 x0 x1 x2 x3 xs0).1 S1x1024x1024.size (by sl_kernel_rfl) y

def out2_D_4 (hc0 : ¬cond2_0 i) (hc1 : ¬cond2_1 i) (hc2 : cond2_2 i)
    (x0 : Vec F S1x1024x1024 .bf16) (x1 : Vec F S1x512x1024 .bf16) (x2 : Vec F S1x1x512 .f32) (x3 : Vec F S1x512x1024 .bf16) (xs0 : Vec F S1024x1024 .f32) : Vec F S1x1024x1024 .f32 :=
  VO2_4.read (Elt F) (VO2_4.writes (Elt F) VO2_4.junk (kernelRun2_D c i arg3 harg3 arg4 harg4 arg5 harg5 arg6 harg6 arg7 harg7 arg8 harg8 hc0 hc1 hc2 x0 x1 x2 x3 xs0).1)

theorem cover2_E_4 (hc0 : ¬cond2_0 i) (hc1 : cond2_1 i) (hc2 : cond2_2 i)
    (x0 : Vec F S1x1024x1024 .bf16) (x1 : Vec F S1x512x1024 .bf16) (x2 : Vec F S1x1x512 .f32) (x3 : Vec F S1x512x1024 .bf16) (xs0 : Vec F S1024x1024 .f32) (y : S1x1024x1024.Idx) :
    ∃ pc ∈ (kernelRun2_E c i arg3 harg3 arg4 harg4 arg5 harg5 arg6 harg6 arg7 harg7 arg8 harg8 hc0 hc1 hc2 x0 x1 x2 x3 xs0).1, y ∈ pc.1.set :=
  View.cover_of_tiledL (kernelRun2_E c i arg3 harg3 arg4 harg4 arg5 harg5 arg6 harg6 arg7 harg7 arg8 harg8 hc0 hc1 hc2 x0 x1 x2 x3 xs0).1 S1x1024x1024.size (by sl_kernel_rfl) y

def out2_E_4 (hc0 : ¬cond2_0 i) (hc1 : cond2_1 i) (hc2 : cond2_2 i)
    (x0 : Vec F S1x1024x1024 .bf16) (x1 : Vec F S1x512x1024 .bf16) (x2 : Vec F S1x1x512 .f32) (x3 : Vec F S1x512x1024 .bf16) (xs0 : Vec F S1024x1024 .f32) : Vec F S1x1024x1024 .f32 :=
  VO2_4.read (Elt F) (VO2_4.writes (Elt F) VO2_4.junk (kernelRun2_E c i arg3 harg3 arg4 harg4 arg5 harg5 arg6 harg6 arg7 harg7 arg8 harg8 hc0 hc1 hc2 x0 x1 x2 x3 xs0).1)

theorem scover2_E_0 (hc0 : ¬cond2_0 i) (hc1 : cond2_1 i) (hc2 : cond2_2 i)
    (x0 : Vec F S1x1024x1024 .bf16) (x1 : Vec F S1x512x1024 .bf16) (x2 : Vec F S1x1x512 .f32) (x3 : Vec F S1x512x1024 .bf16) (xs0 : Vec F S1024x1024 .f32) (y : S1024x1024.Idx) :
    ∃ pc ∈ (kernelRun2_E c i arg3 harg3 arg4 harg4 arg5 harg5 arg6 harg6 arg7 harg7 arg8 harg8 hc0 hc1 hc2 x0 x1 x2 x3 xs0).2.1, y ∈ pc.1.set :=
  View.cover_of_tiledL (kernelRun2_E c i arg3 harg3 arg4 harg4 arg5 harg5 arg6 harg6 arg7 harg7 arg8 harg8 hc0 hc1 hc2 x0 x1 x2 x3 xs0).2.1 S1024x1024.size (by sl_kernel_rfl) y

def sout2_E_0 (hc0 : ¬cond2_0 i) (hc1 : cond2_1 i) (hc2 : cond2_2 i)
    (x0 : Vec F S1x1024x1024 .bf16) (x1 : Vec F S1x512x1024 .bf16) (x2 : Vec F S1x1x512 .f32) (x3 : Vec F S1x512x1024 .bf16) (xs0 : Vec F S1024x1024 .f32) : Vec F S1024x1024 .f32 :=
  VS2_0.read (Elt F) (VS2_0.writes (Elt F) VS2_0.junk (kernelRun2_E c i arg3 harg3 arg4 harg4 arg5 harg5 arg6 harg6 arg7 harg7 arg8 harg8 hc0 hc1 hc2 x0 x1 x2 x3 xs0).2.1)
end

def outsAt2 (c : Dev nD) : (n : ℕ) → n < cfg2.N → Vec F S1x1024x1024 .f32 × Vec F S1024x1024 .f32
  | 0, hn => (junkOut2, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) ((hcond2_1 ⟨0, hn⟩).mpr (Or.inl (show (0 : ℕ) % 4 < 2 from by decide))) (fun h => (fun h => by (try dsimp only at h); omega) ((hcond2_2 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 4 = 0 then
      if h1 : ((n + 1) % 4 < 2 ∨ ((n + 1) / 4) % 2 = 1) then
        if h2 : (n + 1) % 4 = 3 then
          False.elim (by omega)
        else
          (junkOut2, sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) ((hcond2_1 ⟨n + 1, hn⟩).mpr h1) (fun h => h2 ((hcond2_2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
      else
        False.elim (by omega)
    else
      if h1 : ((n + 1) % 4 < 2 ∨ ((n + 1) / 4) % 2 = 1) then
        if h2 : (n + 1) % 4 = 3 then
          (out2_E_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_E_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
        else
          (junkOut2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        if h2 : (n + 1) % 4 = 3 then
          (out2_D_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) ((hcond2_2 ⟨n + 1, hn⟩).mpr h2) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, (outsAt2 c n (Nat.lt_of_succ_lt hn)).2)
        else
          (junkOut2, (outsAt2 c n (Nat.lt_of_succ_lt hn)).2)

theorem outsAt2_A (c : Dev nD) (t : Fin cfg2.N) (h0 : t.val % 4 = 0) (h1 : (t.val % 4 < 2 ∨ (t.val / 4) % 2 = 1)) (h2 : ¬t.val % 4 = 3) :
    outsAt2 V c t.val t.isLt = (junkOut2, sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) ((hcond2_1 t).mpr h1) (fun h => h2 ((hcond2_2 t).mp h)) (iblk2 V c 0 t) (iblk2 V c 1 t) (iblk2 V c 2 t) (iblk2 V c 3 t)) := by
  obtain ⟨n, hn⟩ := t
  cases n with
  | zero => exact rfl
  | succ n => exact (dif_pos h0).trans ((dif_pos h1).trans ((dif_neg h2).trans rfl))

theorem outsAt2_B (c : Dev nD) (t : Fin cfg2.N) (h0 : ¬t.val % 4 = 0) (h1 : (t.val % 4 < 2 ∨ (t.val / 4) % 2 = 1)) (h2 : ¬t.val % 4 = 3) :
    outsAt2 V c t.val t.isLt = (junkOut2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (fun h => h2 ((hcond2_2 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans rfl))

theorem outsAt2_C (c : Dev nD) (t : Fin cfg2.N) (h0 : ¬t.val % 4 = 0) (h1 : ¬(t.val % 4 < 2 ∨ (t.val / 4) % 2 = 1)) (h2 : ¬t.val % 4 = 3) :
    outsAt2 V c t.val t.isLt = (junkOut2, (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans rfl))

theorem outsAt2_D (c : Dev nD) (t : Fin cfg2.N) (h0 : ¬t.val % 4 = 0) (h1 : ¬(t.val % 4 < 2 ∨ (t.val / 4) % 2 = 1)) (h2 : t.val % 4 = 3) :
    outsAt2 V c t.val t.isLt = (out2_D_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) ((hcond2_2 t).mpr h2) (iblk2 V c 0 t) (iblk2 V c 1 t) (iblk2 V c 2 t) (iblk2 V c 3 t) (outsAt2 V c (t.val - 1) (Nat.lt_of_le_of_lt (Nat.sub_le _ _) t.isLt)).2, (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans rfl))

theorem outsAt2_E (c : Dev nD) (t : Fin cfg2.N) (h0 : ¬t.val % 4 = 0) (h1 : (t.val % 4 < 2 ∨ (t.val / 4) % 2 = 1)) (h2 : t.val % 4 = 3) :
    outsAt2 V c t.val t.isLt = (out2_E_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) ((hcond2_2 t).mpr h2) (iblk2 V c 0 t) (iblk2 V c 1 t) (iblk2 V c 2 t) (iblk2 V c 3 t) (outsAt2 V c (t.val - 1) (Nat.lt_of_le_of_lt (Nat.sub_le _ _) t.isLt)).2, sout2_E_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) ((hcond2_2 t).mpr h2) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_pos h2).trans rfl))

def PhiS2 (c : Dev nD) : (n : ℕ) → n ≤ cfg2.N → sProp 𝕄
  | 0, _ => Pipeline.ΦA spec2 c
  | n + 1, hn => iprop(rest2 (F := F) c ∗ owns (c : Thread nD τ) scM2_0 fullShare ((outsAt2 V c n hn).2) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(rest2 (F := F) c ∗ owns (c : Thread nD τ) scM2_0 fullShare ((outsAt2 V c n hn).2) ∗ (∃ r, prngReg c r)) := rfl

theorem PhiS2_pos (c : Dev nD) (n : ℕ) (h : n ≤ cfg2.N) (hz : n ≠ 0) :
    PhiS2 V c n h = iprop(rest2 (F := F) c ∗ owns (c : Thread nD τ) scM2_0 fullShare ((outsAt2 V c (n - 1) (by omega)).2) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q := fun | ⟨0, _⟩ => fullShare.left | ⟨1, _⟩ => fullShare.right | _ => fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  by_cases h0 : t.val % 4 = 0
  · by_cases h1 : (t.val % 4 < 2 ∨ (t.val / 4) % 2 = 1)
    · by_cases h2 : t.val % 4 = 3
      · exfalso; omega
      ·
        rw [show (dat2 V c).leavesExact 0 t = owns (c : Thread nD τ) (ms2_0 t) fullShare ((dat2 V c).after 0 t) from by
                  unfold Dat.leavesExact; rw [liveAt2_0 t], after2_0]
        rw [show (dat2 V c).leavesExact 1 t = owns (c : Thread nD τ) (ms2_1 t) fullShare ((dat2 V c).after 1 t) from by
                  unfold Dat.leavesExact; rw [liveAt2_1 t], after2_1]
        rw [show (dat2 V c).leavesExact 2 t = owns (c : Thread nD τ) (ms2_2 t) fullShare ((dat2 V c).after 2 t) from by
                  unfold Dat.leavesExact; rw [liveAt2_2 t], after2_2]
        rw [show (dat2 V c).leavesExact 3 t = owns (c : Thread nD τ) (ms2_3 t) fullShare ((dat2 V c).after 3 t) from by
                  unfold Dat.leavesExact; rw [liveAt2_3 t], after2_3]
        rw [Dat.leavesExact_idle (dat2 V c) 4 t (idleAt2_4_A t ((hcond2_0 t).mpr h0) ((hcond2_1 t).mpr h1) (fun h => h2 ((hcond2_2 t).mp h))) (noFlush2_4_A t ((hcond2_0 t).mpr h0) ((hcond2_1 t).mpr h1) (fun h => h2 ((hcond2_2 t).mp h)))]
        rw [outsAt2_A V c t h0 h1 h2]
        unfold sout2_A_0; (try dsimp only)
        by_cases hz : t.val = 0
        · rw [PhiS2_castSucc V c t, PhiS2_zero V c _ _ hz]
          iintro ⟨HΦ, Ho, ⟨%d0, H0⟩, ⟨%d1, H1⟩, ⟨%d2, H2⟩, ⟨%d3, H3⟩, ⟨%d4, H4⟩⟩
          ihave HΦ' := (PhiA2_elim (F := F) c) $$ HΦ
          icases HΦ' with ⟨HR, HS0, Hg⟩
          iapply ((kernelRun2_A c (grid2.coords t) _ _ _ _ _ _ _ _ _ _ _ _ ((hcond2_0 t).mpr h0) ((hcond2_1 t).mpr h1) (fun h => h2 ((hcond2_2 t).mp h)) (iblk2 V c 0 t) (iblk2 V c 1 t) (iblk2 V c 2 t) (iblk2 V c 3 t)).2.2 _ Set.univ _)
          iframe H0 H1 H2 H3 H4 HS0
          iintro ⟨H0, H1, H2, H3, H4, ⟨%es0, HS0⟩⟩
          isplitl [HR HS0 Hg]
          · isplitl [HR]; · iexact HR
            isplitl [HS0]
            · unfold owns; iexists _; isplitr
              swap; · iexact HS0
              ipureintro; exact View.read_writes_of_cover _ _ _ _ _ (scover2_A_0 c _ _ _ _ _ _ _ _ _ _ _ _ _ _ _ _ _ _ _ _)
            iexact Hg
          iframe Ho H0 H1 H2 H3
          iexists _; iexact H4
        · rw [PhiS2_castSucc V c t, PhiS2_pos V c _ _ hz]
          iintro ⟨⟨HR, HS0, Hg⟩, Ho, ⟨%d0, H0⟩, ⟨%d1, H1⟩, ⟨%d2, H2⟩, ⟨%d3, H3⟩, ⟨%d4, H4⟩⟩
          iapply ((kernelRun2_A c (grid2.coords t) _ _ _ _ _ _ _ _ _ _ _ _ ((hcond2_0 t).mpr h0) ((hcond2_1 t).mpr h1) (fun h => h2 ((hcond2_2 t).mp h)) (iblk2 V c 0 t) (iblk2 V c 1 t) (iblk2 V c 2 t) (iblk2 V c 3 t)).2.2 _ Set.univ _)
          iframe H0 H1 H2 H3 H4
          isplitl [HS0]; · iexists _; iexact HS0
          iintro ⟨H0, H1, H2, H3, H4, ⟨%es0, HS0⟩⟩
          isplitl [HR HS0 Hg]
          · isplitl [HR]; · iexact HR
            isplitl [HS0]
            · unfold owns; iexists _; isplitr
              swap; · iexact HS0
              ipureintro; exact View.read_writes_of_cover _ _ _ _ _ (scover2_A_0 c _ _ _ _ _ _ _ _ _ _ _ _ _ _ _ _ _ _ _ _)
            iexact Hg
          iframe Ho H0 H1 H2 H3
          iexists _; iexact H4
    · exfalso; omega
  · by_cases h1 : (t.val % 4 < 2 ∨ (t.val / 4) % 2 = 1)
    · by_cases h2 : t.val % 4 = 3
      ·
        rw [show (dat2 V c).leavesExact 0 t = owns (c : Thread nD τ) (ms2_0 t) fullShare ((dat2 V c).after 0 t) from by
                  unfold Dat.leavesExact; rw [liveAt2_0 t], after2_0]
        rw [show (dat2 V c).leavesExact 1 t = owns (c : Thread nD τ) (ms2_1 t) fullShare ((dat2 V c).after 1 t) from by
                  unfold Dat.leavesExact; rw [liveAt2_1 t], after2_1]
        rw [show (dat2 V c).leavesExact 2 t = owns (c : Thread nD τ) (ms2_2 t) fullShare ((dat2 V c).after 2 t) from by
                  unfold Dat.leavesExact; rw [liveAt2_2 t], after2_2]
        rw [show (dat2 V c).leavesExact 3 t = owns (c : Thread nD τ) (ms2_3 t) fullShare ((dat2 V c).after 3 t) from by
                  unfold Dat.leavesExact; rw [liveAt2_3 t], after2_3]
        rw [show (dat2 V c).leavesExact 4 t = owns (c : Thread nD τ) (ms2_4 t) fullShare ((dat2 V c).after 4 t) from by
                  unfold Dat.leavesExact; rw [liveAt2_4_E t (fun h => h0 ((hcond2_0 t).mp h)) ((hcond2_1 t).mpr h1) ((hcond2_2 t).mpr h2)], after2_4]
        rw [outsAt2_E V c t h0 h1 h2]
        unfold out2_E_4 sout2_E_0; (try dsimp only)
        have hz : t.val ≠ 0 := by omega
        rw [PhiS2_castSucc V c t, PhiS2_pos V c _ _ hz]
        iintro ⟨⟨HR, HS0, Hg⟩, Ho, ⟨%d0, H0⟩, ⟨%d1, H1⟩, ⟨%d2, H2⟩, ⟨%d3, H3⟩, ⟨%d4, H4⟩⟩
        iapply ((kernelRun2_E c (grid2.coords t) _ _ _ _ _ _ _ _ _ _ _ _ (fun h => h0 ((hcond2_0 t).mp h)) ((hcond2_1 t).mpr h1) ((hcond2_2 t).mpr h2) (iblk2 V c 0 t) (iblk2 V c 1 t) (iblk2 V c 2 t) (iblk2 V c 3 t) _).2.2 Set.univ _)
        iframe H0 H1 H2 H3
        isplitl [H4]; · iexists _; iexact H4
        isplitl [HS0]; · iexact HS0
        iintro ⟨H0, H1, H2, H3, ⟨%e4, H4⟩, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover2_E_0 c _ _ _ _ _ _ _ _ _ _ _ _ _ _ _ _ _ _ _ _ _)
          iexact Hg
        iframe Ho H0 H1 H2 H3
        unfold owns; iexists _; isplitr
        swap; · iexact H4
        ipureintro; exact View.read_writes_of_cover _ _ _ _ _ (cover2_E_4 c _ _ _ _ _ _ _ _ _ _ _ _ _ _ _ _ _ _ _ _ _)
      ·
        rw [show (dat2 V c).leavesExact 0 t = owns (c : Thread nD τ) (ms2_0 t) fullShare ((dat2 V c).after 0 t) from by
                  unfold Dat.leavesExact; rw [liveAt2_0 t], after2_0]
        rw [show (dat2 V c).leavesExact 1 t = owns (c : Thread nD τ) (ms2_1 t) fullShare ((dat2 V c).after 1 t) from by
                  unfold Dat.leavesExact; rw [liveAt2_1 t], after2_1]
        rw [show (dat2 V c).leavesExact 2 t = owns (c : Thread nD τ) (ms2_2 t) fullShare ((dat2 V c).after 2 t) from by
                  unfold Dat.leavesExact; rw [liveAt2_2 t], after2_2]
        rw [show (dat2 V c).leavesExact 3 t = owns (c : Thread nD τ) (ms2_3 t) fullShare ((dat2 V c).after 3 t) from by
                  unfold Dat.leavesExact; rw [liveAt2_3 t], after2_3]
        rw [Dat.leavesExact_idle (dat2 V c) 4 t (idleAt2_4_B t (fun h => h0 ((hcond2_0 t).mp h)) ((hcond2_1 t).mpr h1) (fun h => h2 ((hcond2_2 t).mp h))) (noFlush2_4_B t (fun h => h0 ((hcond2_0 t).mp h)) ((hcond2_1 t).mpr h1) (fun h => h2 ((hcond2_2 t).mp h)))]
        rw [outsAt2_B V c t h0 h1 h2]
        unfold sout2_B_0; (try dsimp only)
        have hz : t.val ≠ 0 := by omega
        rw [PhiS2_castSucc V c t, PhiS2_pos V c _ _ hz]
        iintro ⟨⟨HR, HS0, Hg⟩, Ho, ⟨%d0, H0⟩, ⟨%d1, H1⟩, ⟨%d2, H2⟩, ⟨%d3, H3⟩, ⟨%d4, H4⟩⟩
        iapply ((kernelRun2_B c (grid2.coords t) _ _ _ _ _ _ _ _ _ _ _ _ (fun h => h0 ((hcond2_0 t).mp h)) ((hcond2_1 t).mpr h1) (fun h => h2 ((hcond2_2 t).mp h)) (iblk2 V c 0 t) (iblk2 V c 1 t) (iblk2 V c 2 t) (iblk2 V c 3 t) _).2.2 _ Set.univ _)
        iframe H0 H1 H2 H3 H4 HS0
        iintro ⟨H0, H1, H2, H3, H4, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover2_B_0 c _ _ _ _ _ _ _ _ _ _ _ _ _ _ _ _ _ _ _ _ _)
          iexact Hg
        iframe Ho H0 H1 H2 H3
        iexists _; iexact H4
    · by_cases h2 : t.val % 4 = 3
      ·
        rw [show (dat2 V c).leavesExact 0 t = owns (c : Thread nD τ) (ms2_0 t) fullShare ((dat2 V c).after 0 t) from by
                  unfold Dat.leavesExact; rw [liveAt2_0 t], after2_0]
        rw [show (dat2 V c).leavesExact 1 t = owns (c : Thread nD τ) (ms2_1 t) fullShare ((dat2 V c).after 1 t) from by
                  unfold Dat.leavesExact; rw [liveAt2_1 t], after2_1]
        rw [show (dat2 V c).leavesExact 2 t = owns (c : Thread nD τ) (ms2_2 t) fullShare ((dat2 V c).after 2 t) from by
                  unfold Dat.leavesExact; rw [liveAt2_2 t], after2_2]
        rw [show (dat2 V c).leavesExact 3 t = owns (c : Thread nD τ) (ms2_3 t) fullShare ((dat2 V c).after 3 t) from by
                  unfold Dat.leavesExact; rw [liveAt2_3 t], after2_3]
        rw [show (dat2 V c).leavesExact 4 t = owns (c : Thread nD τ) (ms2_4 t) fullShare ((dat2 V c).after 4 t) from by
                  unfold Dat.leavesExact; rw [liveAt2_4_D t (fun h => h0 ((hcond2_0 t).mp h)) (fun h => h1 ((hcond2_1 t).mp h)) ((hcond2_2 t).mpr h2)], after2_4]
        rw [outsAt2_D V c t h0 h1 h2]
        unfold out2_D_4; (try dsimp only)
        have hz : t.val ≠ 0 := by omega
        rw [PhiS2_castSucc V c t, PhiS2_pos V c _ _ hz]
        iintro ⟨⟨HR, HS0, Hg⟩, Ho, ⟨%d0, H0⟩, ⟨%d1, H1⟩, ⟨%d2, H2⟩, ⟨%d3, H3⟩, ⟨%d4, H4⟩⟩
        iapply ((kernelRun2_D c (grid2.coords t) _ _ _ _ _ _ _ _ _ _ _ _ (fun h => h0 ((hcond2_0 t).mp h)) (fun h => h1 ((hcond2_1 t).mp h)) ((hcond2_2 t).mpr h2) (iblk2 V c 0 t) (iblk2 V c 1 t) (iblk2 V c 2 t) (iblk2 V c 3 t) _).2.2 Set.univ _)
        iframe H0 H1 H2 H3
        isplitl [H4]; · iexists _; iexact H4
        isplitl [HS0]; · iexact HS0
        iintro ⟨H0, H1, H2, H3, ⟨%e4, H4⟩, HS0⟩
        isplitl [HR HS0 Hg]
        · isplitl [HR]; · iexact HR
          isplitl [HS0]; · iexact HS0
          iexact Hg
        iframe Ho H0 H1 H2 H3
        unfold owns; iexists _; isplitr
        swap; · iexact H4
        ipureintro; exact View.read_writes_of_cover _ _ _ _ _ (cover2_D_4 c _ _ _ _ _ _ _ _ _ _ _ _ _ _ _ _ _ _ _ _ _)
      ·
        rw [show (dat2 V c).leavesExact 0 t = owns (c : Thread nD τ) (ms2_0 t) fullShare ((dat2 V c).after 0 t) from by
                  unfold Dat.leavesExact; rw [liveAt2_0 t], after2_0]
        rw [show (dat2 V c).leavesExact 1 t = owns (c : Thread nD τ) (ms2_1 t) fullShare ((dat2 V c).after 1 t) from by
                  unfold Dat.leavesExact; rw [liveAt2_1 t], after2_1]
        rw [show (dat2 V c).leavesExact 2 t = owns (c : Thread nD τ) (ms2_2 t) fullShare ((dat2 V c).after 2 t) from by
                  unfold Dat.leavesExact; rw [liveAt2_2 t], after2_2]
        rw [show (dat2 V c).leavesExact 3 t = owns (c : Thread nD τ) (ms2_3 t) fullShare ((dat2 V c).after 3 t) from by
                  unfold Dat.leavesExact; rw [liveAt2_3 t], after2_3]
        rw [Dat.leavesExact_idle (dat2 V c) 4 t (idleAt2_4_C t (fun h => h0 ((hcond2_0 t).mp h)) (fun h => h1 ((hcond2_1 t).mp h)) (fun h => h2 ((hcond2_2 t).mp h))) (noFlush2_4_C t (fun h => h0 ((hcond2_0 t).mp h)) (fun h => h1 ((hcond2_1 t).mp h)) (fun h => h2 ((hcond2_2 t).mp h)))]
        rw [outsAt2_C V c t h0 h1 h2]
        (try dsimp only)
        have hz : t.val ≠ 0 := by omega
        rw [PhiS2_castSucc V c t, PhiS2_pos V c _ _ hz]
        iintro ⟨⟨HR, HS0, Hg⟩, Ho, ⟨%d0, H0⟩, ⟨%d1, H1⟩, ⟨%d2, H2⟩, ⟨%d3, H3⟩, ⟨%d4, H4⟩⟩
        iapply ((kernelRun2_C c (grid2.coords t) _ _ _ _ _ _ _ _ _ _ _ _ (fun h => h0 ((hcond2_0 t).mp h)) (fun h => h1 ((hcond2_1 t).mp h)) (fun h => h2 ((hcond2_2 t).mp h)) (iblk2 V c 0 t) (iblk2 V c 1 t) (iblk2 V c 2 t) (iblk2 V c 3 t) _).2.2 _ Set.univ _)
        iframe H0 H1 H2 H3 H4 HS0
        iintro ⟨H0, H1, H2, H3, H4, HS0⟩
        isplitl [HR HS0 Hg]
        · isplitl [HR]; · iexact HR
          isplitl [HS0]; · iexact HS0
          iexact Hg
        iframe Ho H0 H1 H2 H3
        iexists _; iexact H4

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  iintro ⟨HR, HS0, Hg⟩
  iapply (PhiA2_intro (F := F) c)
  isplitl [HR]; · iexact HR
  isplitl [HS0]; · iexists _; iexact HS0
  iexact Hg

theorem hout2 (c : Dev nD) : (dat2 V c).Φ (Fin.last cfg2.N) ⊢ Pipeline.ΦA spec2 c :=
  Phi_out2 V c _ (by rw [Fin.val_last]; have : cfg2.N = 64 := N_2; omega)

end Cert.KernelIdeal.Fr

end
-- ==== Proof.KI.Run.lean ====
import proofs.«138723_j18210661335624_2_alg».proof.Proof.KI.R0
import proofs.«138723_j18210661335624_2_alg».proof.Proof.KI.R1
import proofs.«138723_j18210661335624_2_alg».proof.Proof.KI.R2

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Shared

variable (V : (c : Dev nD) → (b : Ref sig .tc) → Buf (Elt F) ((c : Thread nD τ).loc b))

theorem dat1_q0 (c : Dev nD) : (dat1 V c).q 0 = fullShare.left := rfl
theorem dat1_q1 (c : Dev nD) : (dat1 V c).q 1 = fullShare.right := rfl
theorem dat1_owed (c : Dev nD) (t : Fin (cfg1.N + 1)) : (dat1 V c).owed t = 0 := rfl
theorem dat2_q0 (c : Dev nD) : (dat2 V c).q 0 = fullShare.left := rfl
theorem dat2_q1 (c : Dev nD) : (dat2 V c).q 1 = fullShare.right := rfl
theorem dat2_q2 (c : Dev nD) : (dat2 V c).q 2 = fullShare := rfl
theorem dat2_q3 (c : Dev nD) : (dat2 V c).q 3 = fullShare := rfl
theorem dat2_owed (c : Dev nD) (t : Fin (cfg2.N + 1)) : (dat2 V c).owed t = 0 := rfl

theorem share1_0 (c : Dev nD) : (dat1 V c).share 0 = fullShare.left := by
  unfold Dat.share; rw [if_neg (by decide)]; exact dat1_q0 V c
theorem share1_1 (c : Dev nD) : (dat1 V c).share 1 = fullShare.right := by
  unfold Dat.share; rw [if_neg (by decide)]; exact dat1_q1 V c
theorem share1_2 (c : Dev nD) : (dat1 V c).share 2 = fullShare := by
  unfold Dat.share; rw [if_pos (by decide)]

theorem arrRefs1 : (Finset.univ.image (Pipeline.arrRef spec1) : Finset (Ref sig .tc)) = {main_v1_0, main_v2} := by decide

theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v1_0) ↦{fullShare} Vc main_v1_0) ∗ (((c : Thread nD τ).loc main_v2) ↦{fullShare} Vc main_v2)) := by
  unfold Pipeline.arrBufs
  rw [arrRefs1, bigSep_insert (by decide), bigSep_singleton]
  rfl

theorem arrays1_eq (c : Dev nD) (G : (w : Fin cfg1.W) → Buf (Elt F) ((cfg1.win w).arr.view.loc (c : Thread nD τ))) :
    ((dat1 V c).arrays G : sProp 𝕄)
      = iprop((((c : Thread nD τ).loc main_v1_0) ↦{fullShare.left} G 0) ∗ (((c : Thread nD τ).loc main_v1_0) ↦{fullShare.right} G 1)
          ∗ (((c : Thread nD τ).loc main_v2) ↦{fullShare} G 2)) := by
  unfold Dat.arrays
  rw [bigSep_W1, (arr_whole1 0).set_eq_univ, (arr_whole1 2).set_eq_univ, share1_0, share1_1, share1_2]

theorem split1 (c : Dev nD) (Vc : (b : Ref sig .tc) → Buf (Elt F) ((c : Thread nD τ).loc b)) :
    (unscopedBufs (Ix := Unit) (Name := ℕ) (U := UR sig nD τ) (Lvl := ℕ) c Vc : sProp 𝕄)
      = iprop(Pipeline.arrBufs spec1 c Vc ∗ Pipeline.unscopedRest spec1 c Vc) :=
  Pipeline.unscopedBufs_split₀ cfgs 1 winFacts₀1.arr_unscoped c Vc

theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  rw [split1, arrBufs1_eq, arrays1_eq,
    show (dat1 V c).arrAt 0 0 = V c main_v1_0 from A_eq1 V c 0, show (dat1 V c).arrAt 1 0 = V c main_v1_0 from A_eq1 V c 1,
    show (dat1 V c).arrAt 2 0 = V c main_v2 from A_eq1 V c 2]
  iintro ⟨⟨Hp, Hs⟩, Hrest⟩
  ihave Hp := (pointsTo_share (PosShare.mem_left_op_right fullShare)).1 $$ Hp
  icases Hp with ⟨Hp₁, Hp₂⟩
  isplitr [Hrest]
  · isplitl [Hp₁]; · iexact Hp₁
    isplitl [Hp₂]; · iexact Hp₂
    iexact Hs
  · iexact Hrest

theorem exit1 (c : Dev nD) (V' : (b : Ref sig .tc) → Buf (Elt F) ((c : Thread nD τ).loc b))
    (h2 : V' main_v2 = (dat1 V c).arrAt 2 cfg1.N) (hrest : ∀ b, b ≠ main_v2 → V' b = V c b) :
    iprop((dat1 V c).arrays ((dat1 V c).arrAt · cfg1.N) ∗ Pipeline.unscopedRest spec1 c (V c))
      ⊢ (unscopedBufs (Ix := Unit) (Name := ℕ) (U := UR sig nD τ) (Lvl := ℕ) c V' : sProp 𝕄) := by
  have hr : (Pipeline.unscopedRest (Ix := Unit) (Name := ℕ) (U := UR sig nD τ) (Lvl := ℕ) spec1 c (V c) : sProp 𝕄)
      = Pipeline.unscopedRest spec1 c V' := by
    unfold Pipeline.unscopedRest
    exact bigSep_congr fun b hb => by
      rw [hrest b fun e => (Finset.mem_sdiff.mp hb).2 (e ▸ by decide)]
  rw [split1, arrBufs1_eq, arrays1_eq, hr,
    show (dat1 V c).arrAt 0 cfg1.N = V c main_v1_0 from ((dat1 V c).arrAt_in 0 rfl _).trans (A_eq1 V c 0),
    show (dat1 V c).arrAt 1 cfg1.N = V c main_v1_0 from ((dat1 V c).arrAt_in 1 rfl _).trans (A_eq1 V c 1),
    h2, hrest main_v1_0 (by decide)]
  iintro ⟨⟨Hp₁, Hp₂, Hs⟩, Hrest⟩
  isplitr [Hrest]
  · isplitl [Hp₁ Hp₂]
    · iapply (pointsTo_share (PosShare.mem_left_op_right fullShare)).2
      isplitl [Hp₁] <;> iassumption
    · iexact Hs
  · iexact Hrest

end Shared

section Shared2

variable (V : (c : Dev nD) → (b : Ref sig .tc) → Buf (Elt F) ((c : Thread nD τ).loc b))

theorem share2_0 (c : Dev nD) : (dat2 V c).share 0 = fullShare.left := by
  unfold Dat.share; rw [if_neg (by decide)]; exact dat2_q0 V c
theorem share2_1 (c : Dev nD) : (dat2 V c).share 1 = fullShare.right := by
  unfold Dat.share; rw [if_neg (by decide)]; exact dat2_q1 V c
theorem share2_2 (c : Dev nD) : (dat2 V c).share 2 = fullShare := by
  unfold Dat.share; rw [if_neg (by decide)]; exact dat2_q2 V c
theorem share2_3 (c : Dev nD) : (dat2 V c).share 3 = fullShare := by
  unfold Dat.share; rw [if_neg (by decide)]; exact dat2_q3 V c
theorem share2_4 (c : Dev nD) : (dat2 V c).share 4 = fullShare := by
  unfold Dat.share; rw [if_pos (by decide)]

theorem arrRefs2 : (Finset.univ.image (Pipeline.arrRef spec2) : Finset (Ref sig .tc)) = {main_v1_0, main_v1_1, main_v2, main_v3} := by decide

theorem arrBufs2_eq (c : Dev nD) (Vc : (b : Ref sig .tc) → Buf (Elt F) ((c : Thread nD τ).loc b)) :
    (Pipeline.arrBufs (Ix := Unit) (Name := ℕ) (U := UR sig nD τ) (Lvl := ℕ) spec2 c Vc : sProp 𝕄)
      = iprop((((c : Thread nD τ).loc main_v1_0) ↦{fullShare} Vc main_v1_0) ∗ (((c : Thread nD τ).loc main_v1_1) ↦{fullShare} Vc main_v1_1)
          ∗ (((c : Thread nD τ).loc main_v2) ↦{fullShare} Vc main_v2) ∗ (((c : Thread nD τ).loc main_v3) ↦{fullShare} Vc main_v3)) := by
  unfold Pipeline.arrBufs
  rw [arrRefs2, bigSep_insert (by decide), bigSep_insert (by decide), bigSep_insert (by decide), bigSep_singleton]
  rfl

theorem arrays2_eq (c : Dev nD) (G : (w : Fin cfg2.W) → Buf (Elt F) ((cfg2.win w).arr.view.loc (c : Thread nD τ))) :
    ((dat2 V c).arrays G : sProp 𝕄)
      = iprop((((c : Thread nD τ).loc main_v1_0) ↦{fullShare.left} G 0) ∗ (((c : Thread nD τ).loc main_v1_0) ↦{fullShare.right} G 1)
          ∗ (((c : Thread nD τ).loc main_v2) ↦{fullShare} G 2) ∗ (((c : Thread nD τ).loc main_v1_1) ↦{fullShare} G 3)
          ∗ (((c : Thread nD τ).loc main_v3) ↦{fullShare} G 4)) := by
  unfold Dat.arrays
  rw [bigSep_W2, (arr_whole2 0).set_eq_univ, (arr_whole2 2).set_eq_univ, (arr_whole2 3).set_eq_univ,
    (arr_whole2 4).set_eq_univ, share2_0, share2_1, share2_2, share2_3, share2_4]

theorem split2 (c : Dev nD) (Vc : (b : Ref sig .tc) → Buf (Elt F) ((c : Thread nD τ).loc b)) :
    (unscopedBufs (Ix := Unit) (Name := ℕ) (U := UR sig nD τ) (Lvl := ℕ) c Vc : sProp 𝕄)
      = iprop(Pipeline.arrBufs spec2 c Vc ∗ Pipeline.unscopedRest spec2 c Vc) :=
  Pipeline.unscopedBufs_split₀ cfgs 2 winFacts₀2.arr_unscoped c Vc

theorem entry2 (c : Dev nD) :
    (unscopedBufs (Ix := Unit) (Name := ℕ) (U := UR sig nD τ) (Lvl := ℕ) c (V c) : sProp 𝕄)
      ⊢ iprop((dat2 V c).arrays ((dat2 V c).arrAt · 0) ∗ Pipeline.unscopedRest spec2 c (V c)) := by
  rw [split2, arrBufs2_eq, arrays2_eq,
    show (dat2 V c).arrAt 0 0 = V c main_v1_0 from A_eq2 V c 0, show (dat2 V c).arrAt 1 0 = V c main_v1_0 from A_eq2 V c 1,
    show (dat2 V c).arrAt 2 0 = V c main_v2 from A_eq2 V c 2, show (dat2 V c).arrAt 3 0 = V c main_v1_1 from A_eq2 V c 3,
    show (dat2 V c).arrAt 4 0 = V c main_v3 from A_eq2 V c 4]
  iintro ⟨⟨Hp, Hx, Hs, Ho⟩, Hrest⟩
  ihave Hp := (pointsTo_share (PosShare.mem_left_op_right fullShare)).1 $$ Hp
  icases Hp with ⟨Hp₁, Hp₂⟩
  isplitr [Hrest]
  · isplitl [Hp₁]; · iexact Hp₁
    isplitl [Hp₂]; · iexact Hp₂
    iframe Hs Hx
    iexact Ho
  · iexact Hrest

theorem exit2 (c : Dev nD) (V' : (b : Ref sig .tc) → Buf (Elt F) ((c : Thread nD τ).loc b))
    (h3 : V' main_v3 = (dat2 V c).arrAt 4 cfg2.N) (hrest : ∀ b, b ≠ main_v3 → V' b = V c b) :
    iprop((dat2 V c).arrays ((dat2 V c).arrAt · cfg2.N) ∗ Pipeline.unscopedRest spec2 c (V c))
      ⊢ (unscopedBufs (Ix := Unit) (Name := ℕ) (U := UR sig nD τ) (Lvl := ℕ) c V' : sProp 𝕄) := by
  have hr : (Pipeline.unscopedRest (Ix := Unit) (Name := ℕ) (U := UR sig nD τ) (Lvl := ℕ) spec2 c (V c) : sProp 𝕄)
      = Pipeline.unscopedRest spec2 c V' := by
    unfold Pipeline.unscopedRest
    exact bigSep_congr fun b hb => by
      rw [hrest b fun e => (Finset.mem_sdiff.mp hb).2 (e ▸ by decide)]
  rw [split2, arrBufs2_eq, arrays2_eq, hr,
    show (dat2 V c).arrAt 0 cfg2.N = V c main_v1_0 from ((dat2 V c).arrAt_in 0 rfl _).trans (A_eq2 V c 0),
    show (dat2 V c).arrAt 1 cfg2.N = V c main_v1_0 from ((dat2 V c).arrAt_in 1 rfl _).trans (A_eq2 V c 1),
    show (dat2 V c).arrAt 2 cfg2.N = V c main_v2 from ((dat2 V c).arrAt_in 2 rfl _).trans (A_eq2 V c 2),
    show (dat2 V c).arrAt 3 cfg2.N = V c main_v1_1 from ((dat2 V c).arrAt_in 3 rfl _).trans (A_eq2 V c 3),
    h3, hrest main_v1_0 (by decide), hrest main_v1_1 (by decide), hrest main_v2 (by decide)]
  iintro ⟨⟨Hp₁, Hp₂, Hs, Hx, Ho⟩, Hrest⟩
  isplitr [Hrest]
  · isplitl [Hp₁ Hp₂]
    · iapply (pointsTo_share (PosShare.mem_left_op_right fullShare)).2
      isplitl [Hp₁] <;> iassumption
    iframe Hx Hs
    iexact Ho
  · iexact Hrest

end Shared2

variable (m : (ℓ : Loc nD τ sig) → Buf (Elt F) ℓ) (ρ : Dev nD → PrngReg)

abbrev W0 (c : Dev nD) : Valuation τ sig (Elt F) := fun b => m (c, b)
abbrev W1 (c : Dev nD) : Valuation τ sig (Elt F) := StableHlo.after hostOps0 (W0 m c)
abbrev E0 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (E0 m) c).arrAt w cfg0.N
theorem W2_arr (c : Dev nD) (w : Fin cfg0.W) :
    W2 m c (Proc.devRef .tc (Pipeline.arrRef spec0 w)) = (dat0 (E0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E1 : (c : Dev nD) → (b : Ref sig .tc) → Buf (Elt F) ((c : Thread nD τ).loc b) := fun c b => W2 m c b
theorem hF0 (c : Dev nD) (w : Fin cfg0.W) : (dat0 (E0 m) c).arrAt w cfg0.N = E1 m c (Pipeline.arrRef spec0 w) :=
  (W2_arr m c w).symm
theorem hrest0 (c : Dev nD) : ∀ b, b ∉ Finset.univ.image (Pipeline.arrRef spec0) → E1 m c b = E0 m c b :=
  fun b hb => W2_of_ne m c b fun w e => hb (Finset.mem_image.mpr ⟨w, Finset.mem_univ _, e⟩)

def W3 (c : Dev nD) : Valuation τ sig (Elt F) :=
  Function.update (W2 m c) (Proc.devRef .tc main_v2) ((dat1 (E1 m) c).arrAt 2 cfg1.N)
abbrev E2 : (c : Dev nD) → (b : Ref sig .tc) → Buf (Elt F) ((c : Thread nD τ).loc b) := fun c b => W3 m c b
theorem W3_v2 (c : Dev nD) : W3 m c (Proc.devRef .tc main_v2) = (dat1 (E1 m) c).arrAt 2 cfg1.N := by
  unfold W3; exact Function.update_self ..
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb) ..

def W4 (c : Dev nD) : Valuation τ sig (Elt F) :=
  Function.update (W3 m c) (Proc.devRef .tc main_v3) ((dat2 (E2 m) c).arrAt 4 cfg2.N)
abbrev E3 : (c : Dev nD) → (b : Ref sig .tc) → Buf (Elt F) ((c : Thread nD τ).loc b) := fun c b => W4 m c b
theorem W4_v3 (c : Dev nD) : W4 m c (Proc.devRef .tc main_v3) = (dat2 (E2 m) c).arrAt 4 cfg2.N := by
  unfold W4; exact Function.update_self ..
theorem W4_of_ne (c : Dev nD) (b : Ref sig .tc) (hb : b ≠ main_v3) : W4 m c (Proc.devRef .tc b) = W3 m c (Proc.devRef .tc b) := by
  unfold W4; exact Function.update_of_ne (StableHlo.devRef_ne_of_ne hb) ..

theorem hostOps0_writes : (hostOps0 : List (HloOp τ sig (Elt F))).Forall fun op => op.writes ⊆ (([main_v0] : List (Ref sig .tc)).map (Proc.devRef (τ := τ) .tc)).toFinset := by
  simp only [List.Forall]; exact (by simp only [StableHlo.reshape_writes, Finset.singleton_subset_iff, List.mem_toFinset]; exact List.mem_map_of_mem (by decide))
theorem W1_of (c : Dev nD) (r : Ref sig .tc) (h : r ∉ ([main_v0] : List (Ref sig .tc))) : W1 m c (Proc.devRef .tc r) = W0 m c (Proc.devRef .tc r) :=
  StableHlo.after_of_writes_sub hostOps0 _ hostOps0_writes h

theorem E0_arg0 (c : Dev nD) : E0 m c main_arg0 = m ((c : Thread nD τ).loc main_arg0) := W1_of m c main_arg0 (by decide)
theorem E0_arg1 (c : Dev nD) : E0 m c main_arg1 = m ((c : Thread nD τ).loc main_arg1) := W1_of m c main_arg1 (by decide)
theorem E0_arg2 (c : Dev nD) : E0 m c main_arg2 = m ((c : Thread nD τ).loc main_arg2) := W1_of m c main_arg2 (by decide)

theorem E0_v0 (c : Dev nD) : E0 m c main_v0 = shapeCast S1x1024 (m ((c : Thread nD τ).loc main_arg2)) shapeCasts_S1024_S1x1024 := by
  show StableHlo.after hostOps0 (W0 m c) (Proc.devRef .tc main_v0) = _
  after_results
  rfl

theorem E1_xp (c : Dev nD) : E1 m c main_v1_0 = (dat0 (E0 m) c).arrAt 3 cfg0.N := W2_arr m c 3
theorem E1_xraw (c : Dev nD) : E1 m c main_v1_1 = (dat0 (E0 m) c).arrAt 4 cfg0.N := W2_arr m c 4
theorem E2_xp (c : Dev nD) : E2 m c main_v1_0 = E1 m c main_v1_0 := W3_of_ne m c main_v1_0 (by decide)
theorem E2_xraw (c : Dev nD) : E2 m c main_v1_1 = E1 m c main_v1_1 := W3_of_ne m c main_v1_1 (by decide)
theorem E2_lse (c : Dev nD) : E2 m c main_v2 = (dat1 (E1 m) c).arrAt 2 cfg1.N := W3_v2 m c

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (E0 m) c).arrAt_in 0 rfl _).trans (A_eq0 (E0 m) c 0))
    _ = m ((c : Thread nD τ).loc main_arg0) := E0_arg0 m c
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := (W2_arr m c 1).trans (((dat0 (E0 m) c).arrAt_in 1 rfl _).trans (A_eq0 (E0 m) c 1))
    _ = m ((c : Thread nD τ).loc main_arg1) := E0_arg1 m c
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = m ((c : Thread nD τ).loc main_arg2) := E0_arg2 m c

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ L lv 1 fun c t => dat1_owed (E1 m) c t
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit : (unscopedBufs (Ix := Unit) (Name := ℕ) (U := UR sig nD τ) (Lvl := ℕ) c (E1 m c) : sProp 𝕄)
        ⊢ iprop((pdats m 1 c).arrays ((pdats m 1 c).arrAt · 0) ∗ Pipeline.unscopedRest spec1 c (E1 m c)) := entry1 (E1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m 1 c).Φ 0 from hin1 (E1 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ (Pipeline.ΦA spec1 c : sProp 𝕄) from hout1 (E1 m) c) ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (E1 m c))
        ⊢ (unscopedBufs (Ix := Unit) (Name := ℕ) (U := UR sig nD τ) (Lvl := ℕ) c (E2 m c) : sProp 𝕄) :=
      exit1 (E1 m) c (E2 m c) (W3_v2 m c) (fun b hb => W3_of_ne m c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E2 m) c).loose
  hwaits := Pipeline.hwaits_of_owed_zero _ _ _ _ L lv 2 fun c t => dat2_owed (E2 m) c t
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit : (unscopedBufs (Ix := Unit) (Name := ℕ) (U := UR sig nD τ) (Lvl := ℕ) c (E2 m c) : sProp 𝕄)
        ⊢ iprop((pdats m 2 c).arrays ((pdats m 2 c).arrAt · 0) ∗ Pipeline.unscopedRest spec2 c (E2 m c)) := entry2 (E2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec2 c : sProp 𝕄) ⊢ (pdats m 2 c).Φ 0 from hin2 (E2 m) c)
    unfold Pipeline.ΦA
    iintro ⟨Hp, -, Hr⟩
    isplitl [Hr]; · iexact Hr
    iexact Hp
  hout c := by
    rw [Pipeline.ownSems0_none]
    refine BIBase.Entails.trans (show (pdats m 2 c).Φ (Fin.last _) ⊢ (Pipeline.ΦA spec2 c : sProp 𝕄) from hout2 (E2 m) c) ?_
    unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (E2 m c))
        ⊢ (unscopedBufs (Ix := Unit) (Name := ℕ) (U := UR sig nD τ) (Lvl := ℕ) c (E3 m c) : sProp 𝕄) :=
      exit2 (E2 m) c (E3 m c) (W4_v3 m c) (fun b hb => W4_of_ne m c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m) ]
theorem main_run (c : Dev nD) : main (F := F) c = Pipeline.Seg.run (segs m) := (main_chain c).trans (by chain_rfl)

set_option backward.isDefEq.respectTransparency.types false in
theorem run : θ_run defs (onTc (τ := τ) (main (F := F))) ⟨m, fun _ => 0, ρ⟩ (fun r => ∀ c : Dev nD,
      r.2.mem ((c.tc : Thread nD τ).loc main_v3) = (dat2 (E2 m) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v3 (by decide))).trans (W4_v3 m c),
       (h c _ (mem_uc main_arg0 (by decide))).trans (W4_main_arg0 m c),
       (h c _ (mem_uc main_arg1 (by decide))).trans (W4_main_arg1 m c),
       (h c _ (mem_uc main_arg2 (by decide))).trans (W4_main_arg2 m c)⟩)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run m ρ)

end Cert.KernelIdeal.Fr

end
-- ==== Proof.WordFrame.lean ====
import proofs.«138723_j18210661335624_2_alg».proof.Defs
import proofs.«138723_j18210661335624_2_alg».proof.Proof.Gen.Kernel
import proofs.«138723_j18210661335624_2_alg».proof.Proof.Gen.KernelIdeal
import proofs.«138723_j18210661335624_2_alg».proof.Proof.Gen.Pre_finite_inputs
import proofs.«138723_j18210661335624_2_alg».proof.Proof.KI.Run

open Lean Elab Tactic in
/-- Closes the goal with a complete term whose type is the goal up to unfolding definitions. -/
elab "exact_kernel " t:term : tactic => withMainContext do
  let e ← instantiateMVars (← elabTerm t none)
  if e.hasSorry || e.hasExprMVar then throwError "exact_kernel: the term is not complete"
  (← getMainGoal).assign e

noncomputable section

open Idealize.ShloMosaic Idealize.ShloMosaic.TcCoe Idealize.SL.Sem

namespace Cert.Proof

/-- At the word-level instance a named constant is the constant it was printed from. -/
instance namedBits : Named Bits := ⟨fun _ _ {φ} bits => Scalar.ofBits φ bits⟩

/-- Reading each name as its constant, the idealized program's text at the word-level instance is the word-level program,
    term for term; so the frame proved once for that text at every float model is the word-level program's. -/
theorem frame_k : Cert.frame_Kernel := by
  intro m ρ _
  exact_kernel Cert.KernelIdeal.Fr.frame (F := Bits) m ρ

end Cert.Proof

end
-- ==== Proof.Spec.lean ====
import Idealize.ShloMosaic.PureOps.Ideal

noncomputable section

namespace Cert.Spec

open Idealize.ShloMosaic

/-- The projection x·w + bias. -/
def proj (x : Fin 8 → Fin 2048 → Fin 1024 → EReal) (w : Fin 1024 → Fin 1024 → EReal) (bias : Fin 1024 → EReal)
    (b : Fin 8) (t : Fin 2048) (e : Fin 1024) : EReal :=
  (∑ d : Fin 1024, x b t d * w d e) + bias e

/-- The correlation of rows t and s of the projection. -/
def corr (p : Fin 8 → Fin 2048 → Fin 1024 → EReal) (b : Fin 8) (t s : Fin 2048) : EReal :=
  ∑ e : Fin 1024, p b t e * p b s e

/-- The kernel's masked score: the scaled correlation on and below the diagonal, `neg` above it. -/
def ksc (c neg : EReal) (p : Fin 8 → Fin 2048 → Fin 1024 → EReal) (b : Fin 8) (t s : Fin 2048) : EReal :=
  if s ≤ t then corr p b t s * c else neg

/-- Row j of row block K. -/
def row (K : Fin 2) (j : Fin 1024) : Fin 2048 := ⟨K.val * 1024 + j.val, by have := K.isLt; have := j.isLt; omega⟩

/-- Column j of column block S. -/
def col (S : Fin 4) (j : Fin 512) : Fin 2048 := ⟨S.val * 512 + j.val, by have := S.isLt; have := j.isLt; omega⟩

/-- The largest masked score of column s over row block K. -/
def blkMax (c neg : EReal) (p : Fin 8 → Fin 2048 → Fin 1024 → EReal) (b : Fin 8) (s : Fin 2048) (K : Fin 2) : EReal :=
  (Finset.univ : Finset (Fin 1024)).fold max ⊥ (fun j => ksc c neg p b (row K j) s)

/-- The sum over row block K of exp(score − m). -/
def blkSum (c neg : EReal) (p : Fin 8 → Fin 2048 → Fin 1024 → EReal) (b : Fin 8) (s : Fin 2048) (K : Fin 2) (m : EReal) : EReal :=
  ∑ j : Fin 1024, Ideal.exp (ksc c neg p b (row K j) s - m)

/-- One update of (running maximum, running sum) of column s by row block K. -/
def step (c neg : EReal) (p : Fin 8 → Fin 2048 → Fin 1024 → EReal) (b : Fin 8) (s : Fin 2048) (K : Fin 2) (ml : EReal × EReal) : EReal × EReal :=
  (max ml.1 (blkMax c neg p b s K),
   Ideal.exp (ml.1 - max ml.1 (blkMax c neg p b s K)) * ml.2 + blkSum c neg p b s K (max ml.1 (blkMax c neg p b s K)))

/-- Column s's (maximum, sum) over the row blocks at or below its own. -/
def stats (c neg : EReal) (p : Fin 8 → Fin 2048 → Fin 1024 → EReal) (b : Fin 8) (s : Fin 2048) : EReal × EReal :=
  if s.val < 1024 then step c neg p b s 1 (step c neg p b s 0 (⊥, 0)) else step c neg p b s 1 (⊥, 0)

/-- Column s's log-sum-exp, m + log l. -/
def lseK (c neg : EReal) (p : Fin 8 → Fin 2048 → Fin 1024 → EReal) (b : Fin 8) (s : Fin 2048) : EReal :=
  (stats c neg p b s).1 + Ideal.log (stats c neg p b s).2

/-- The kernel's output: Σ exp(score − L)·x over the column blocks that meet the rows up to t's block. -/
def outK (c neg : EReal) (p : Fin 8 → Fin 2048 → Fin 1024 → EReal) (L : Fin 8 → Fin 2048 → EReal)
    (xr : Fin 8 → Fin 2048 → Fin 1024 → EReal) (b : Fin 8) (t : Fin 2048) (d : Fin 1024) : EReal :=
  ∑ S : Fin 4, if S.val * 512 < (t.val / 1024 + 1) * 1024 then
      ∑ j : Fin 512, Ideal.exp (ksc c neg p b t (col S j) - L b (col S j)) * xr b (col S j) d
    else 0

/-- The reference's masked score: the correlation over r, plus −∞ above the diagonal. -/
def rsc (r : EReal) (p : Fin 8 → Fin 2048 → Fin 1024 → EReal) (b : Fin 8) (t s : Fin 2048) : EReal :=
  Ideal.div (corr p b t s) r + (if s ≤ t then 0 else ⊥)

/-- Column s's largest masked score over all rows. -/
def colMax (r : EReal) (p : Fin 8 → Fin 2048 → Fin 1024 → EReal) (b : Fin 8) (s : Fin 2048) : EReal :=
  max ⊥ ((Finset.univ : Finset (Fin 2048)).fold max ⊥ (fun t => rsc r p b t s))

/-- Column s's sum of exp(score − maximum) over all rows. -/
def colSum (r : EReal) (p : Fin 8 → Fin 2048 → Fin 1024 → EReal) (b : Fin 8) (s : Fin 2048) : EReal :=
  0 + ∑ t : Fin 2048, Ideal.exp (rsc r p b t s - colMax r p b s)

/-- The reference's output: Σ_s (softmax weight along the rows)·x. -/
def outR (r : EReal) (p : Fin 8 → Fin 2048 → Fin 1024 → EReal) (x : Fin 8 → Fin 2048 → Fin 1024 → EReal)
    (b : Fin 8) (t : Fin 2048) (d : Fin 1024) : EReal :=
  ∑ s : Fin 2048, Ideal.div (Ideal.exp (rsc r p b t s - colMax r p b s)) (colSum r p b s) * x b s d

end Cert.Spec

end
-- ==== Proof.Val.V0.lean ====
import proofs.«138723_j18210661335624_2_alg».proof.Proof.KI.R0
import proofs.«138723_j18210661335624_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Fr Idealize.ShloMosaic Idealize.ShloMosaic.TcCoe ValueIdx
open Idealize.ShloMosaic.Pipeline (Dat)

theorem k0_pay1_apply (v0 : Vec Ideal S1x512x1024 .f32) (r : Fin 512) (d : Fin 1024) :
    k0_pay1 v0 (ix2 r d) = v0 (ix3 (0 : Fin 1) r d) := by
  unfold k0_pay1
  exact shapeCast_1ab_ab_apply v0 shapeCasts_S1x512x1024_S512x1024 r d

theorem k0_pay3_apply (v0 : Vec Ideal S1x512x1024 .f32) (u : Fin 1) (r : Fin 512) (d : Fin 1024) :
    k0_pay3 v0 (ix3 u r d) = v0 (ix3 (0 : Fin 1) r d) := by
  unfold k0_pay3
  exact (shapeCast_ab_1ab_apply (k0_pay1 v0) shapeCasts_S512x1024_S1x512x1024 u r d).trans (k0_pay1_apply v0 r d)

theorem lhs_k0_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_k0_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_k0_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_k0_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

theorem matmul_k0_apply (A : FVec Ideal S512x1024 .bf16) (B : FVec Ideal S1024x1024 .bf16) (r : Fin 512) (e : Fin 1024) :
    matmul dot_S512x1024_S1024x1024_S512x1024_1_0_0_1_n_n none A B (constant S512x1024 .f32 0x00000000#32) (ix2 r e)
      = ∑ d : Fin 1024, A (ix2 r d) * B (ix2 d e) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r e) ((ValueIdx.contrEquiv1 dot_S512x1024_S1024x1024_S512x1024_1_0_0_1_n_n 1024 rfl rfl).symm k) = ix2 r k := funext fun a => Fin.ext (by
    match a with
    | ⟨0, _⟩ => exact lhs_k0_0 _ _
    | ⟨1, _⟩ => exact (lhs_k0_1 _ _).trans hk)
  have er : dot_S512x1024_S1024x1024_S512x1024_1_0_0_1_n_n.rhsIdx (ix2 r e) ((ValueIdx.contrEquiv1 dot_S512x1024_S1024x1024_S512x1024_1_0_0_1_n_n 1024 rfl rfl).symm k) = ix2 k e := funext fun a => Fin.ext (by
    match a with
    | ⟨0, _⟩ => exact (rhs_k0_0 _ _).trans hk
    | ⟨1, _⟩ => exact rhs_k0_1 _ _)
  rw [el, er]

theorem k0_pay2_apply (v0 : Vec Ideal S1x512x1024 .f32) (v3 : Vec Ideal S1024x1024 .f32) (v6 : Vec Ideal S1x1024 .f32)
    (u : Fin 1) (r : Fin 512) (e : Fin 1024) :
    k0_pay2 v0 v3 v6 (ix3 u r e) = (∑ d : Fin 1024, v0 (ix3 (0 : Fin 1) r d) * v3 (ix2 d e)) + v6 (ix2 (0 : Fin 1) e) := by
  unfold k0_pay2
  refine (shapeCast_ab_1ab_apply _ shapeCasts_S512x1024_S1x512x1024 u r e).trans ?_
  show matmul dot_S512x1024_S1024x1024_S512x1024_1_0_0_1_n_n none (k0_pay1 v0) (truncf .bf16 v3 bitsLt_bf16_f32) (constant S512x1024 .f32 0x00000000#32) (ix2 r e)
      + broadcastTo S512x1024 (shapeCast S1x1024 v6 shapeCasts_S1x1024_S1x1024) broadcasts_S1x1024_S512x1024 (ix2 r e) = _
  rw [matmul_k0_apply, broadcastTo_1b_ab_apply, shapeCast_self]
  refine congrArg (· + v6 (ix2 (0 : Fin 1) e)) (Finset.sum_congr rfl fun d _ => ?_)
  rw [k0_pay1_apply]
  rfl

section Arrays
variable (V : (c : Dev nD) → (b : Ref sig .tc) → Buf (Elt Ideal) ((c : Thread nD τ).loc b))

theorem hz0_3 : (![0, 0, 0] : Fin 3 → Nat) = fun _ => 0 := funext fun a => by fin_cases a <;> rfl
theorem hz0_2 : (![0, 0] : Fin 2 → Nat) = fun _ => 0 := funext fun a => by fin_cases a <;> rfl

theorem idx_facts0 : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 4 ∧ win0_3.index t (1 : Fin 3) = t.val % 4 ∧ win0_3.index t (2 : Fin 3) = 0
    ∧ win0_4.index t (0 : Fin 3) = t.val / 4 ∧ win0_4.index t (1 : Fin 3) = t.val % 4 ∧ win0_4.index t (2 : Fin 3) = 0 :=
  (by decide +kernel : ∀ t : Fin grid0.N, _)

abbrev xAt (c : Dev nD) (i : S8x2048x1024.Idx) : EReal := V c main_arg0 i
abbrev wAt (c : Dev nD) (i : S1024x1024.Idx) : EReal := V c main_arg1 i
abbrev bAt (c : Dev nD) (i : S1x1024.Idx) : EReal := V c main_v0 i

def G3 (c : Dev nD) : S8x2048x1024.Idx → EReal := fun i =>
  Spec.proj (fun b t d => V c main_arg0 (ix3 b t d)) (fun d e => V c main_arg1 (ix2 d e)) (fun e => V c main_v0 (ix2 0 e)) (i 0) (i 1) (i 2)

theorem flushed3_eq (c : Dev nD) (t : Fin cfg0.N) :
    (dat0 (F := Ideal) V c).flushed 3 t = ((cfg0.win 3).blk t).view.read (Elt Ideal) (G3 V c) := by
  show (cfg0.win 3).cut (grid0.coords t) ((dat0 V c).after 3 t) = _
  rw [after0_3]
  unfold out0_3
  rw [View.canon_unit_zero hz0_3]
  simp only [View.ld_unit_zero (S := S1x512x1024) hz0_3, View.ld_unit_zero (S := S1024x1024) hz0_2, View.ld_unit_zero (S := S1x1024) hz0_2]
  funext j
  have hj : ∃ (u : Fin 1) (r : Fin 512) (e : Fin 1024), (j : S1x512x1024.Idx) = ix3 u r e := ⟨_, _, _, eq_ix3 j⟩
  obtain ⟨u, r, e, rfl⟩ := hj
  show k0_pay2 (iblk0 V c 0 t) (iblk0 V c 1 t) (iblk0 V c 2 t) (ix3 u r e) = G3 V c (((cfg0.win 3).blk t).view.emb (ix3 u r e))
  refine (k0_pay2_apply _ _ _ u r e).trans ?_
  obtain ⟨a0, a1, a2, b0, b1, c0, c1, d0, d1, d2, -, -, -⟩ := idx_facts0 t
  have hu : u.val = 0 := by omega
  have e0 : ∀ d : Fin 1024, ((cfg0.win 0).blk t).view.emb (ix3 (0 : Fin 1) r d)
      = ix3 ((((cfg0.win 3).blk t).view.emb (ix3 u r e)) 0) ((((cfg0.win 3).blk t).view.emb (ix3 u r e)) 1) d := by
    intro d; funext a; apply Fin.ext
    match a with
    | ⟨0, _⟩ => show win0_0.index t (0 : Fin 3) * 1 + 1 * (0 : Fin 1).val = win0_3.index t (0 : Fin 3) * 1 + 1 * u.val; omega
    | ⟨1, _⟩ => show win0_0.index t (1 : Fin 3) * 512 + 1 * r.val = win0_3.index t (1 : Fin 3) * 512 + 1 * r.val; omega
    | ⟨2, _⟩ => show win0_0.index t (2 : Fin 3) * 1024 + 1 * d.val = d.val; omega
  have e1 : ∀ d : Fin 1024, ((cfg0.win 1).blk t).view.emb (ix2 d e)
      = ix2 d ((((cfg0.win 3).blk t).view.emb (ix3 u r e)) 2) := by
    intro d; funext a; apply Fin.ext
    match a with
    | ⟨0, _⟩ => show win0_1.index t (0 : Fin 2) * 1024 + 1 * d.val = d.val; omega
    | ⟨1, _⟩ => show win0_1.index t (1 : Fin 2) * 1024 + 1 * e.val = win0_3.index t (2 : Fin 3) * 1024 + 1 * e.val; omega
  have e2 : ((cfg0.win 2).blk t).view.emb (ix2 (0 : Fin 1) e)
      = ix2 (0 : Fin 1) ((((cfg0.win 3).blk t).view.emb (ix3 u r e)) 2) := by
    funext a; apply Fin.ext
    match a with
    | ⟨0, _⟩ => show win0_2.index t (0 : Fin 2) * 1 + 1 * (0 : Fin 1).val = (0 : Fin 1).val; omega
    | ⟨1, _⟩ => show win0_2.index t (1 : Fin 2) * 1024 + 1 * e.val = win0_3.index t (2 : Fin 3) * 1024 + 1 * e.val; omega
  unfold G3 Spec.proj
  refine congrArg₂ (· + ·) (Finset.sum_congr rfl fun d _ => ?_) ?_
  · show xAt V c (((cfg0.win 0).blk t).view.emb (ix3 (0 : Fin 1) r d)) * wAt V c (((cfg0.win 1).blk t).view.emb (ix2 d e))
        = xAt V c (ix3 ((((cfg0.win 3).blk t).view.emb (ix3 u r e)) 0) ((((cfg0.win 3).blk t).view.emb (ix3 u r e)) 1) d)
          * wAt V c (ix2 d ((((cfg0.win 3).blk t).view.emb (ix3 u r e)) 2))
    rw [e0 d, e1 d]
    rfl
  · show bAt V c (((cfg0.win 2).blk t).view.emb (ix2 (0 : Fin 1) e)) = bAt V c (ix2 (0 : Fin 1) ((((cfg0.win 3).blk t).view.emb (ix3 u r e)) 2))
    rw [e2]
    rfl

def G4 (c : Dev nD) : S8x2048x1024.Idx → EReal := fun i => V c main_arg0 i

theorem flushed4_eq (c : Dev nD) (t : Fin cfg0.N) :
    (dat0 (F := Ideal) V c).flushed 4 t = ((cfg0.win 4).blk t).view.read (Elt Ideal) (G4 V c) := by
  show (cfg0.win 4).cut (grid0.coords t) ((dat0 V c).after 4 t) = _
  rw [after0_4]
  unfold out0_4
  rw [View.canon_unit_zero hz0_3]
  simp only [View.ld_unit_zero (S := S1x512x1024) hz0_3]
  funext j
  have hj : ∃ (u : Fin 1) (r : Fin 512) (d : Fin 1024), (j : S1x512x1024.Idx) = ix3 u r d := ⟨_, _, _, eq_ix3 j⟩
  obtain ⟨u, r, d, rfl⟩ := hj
  show k0_pay3 (iblk0 V c 0 t) (ix3 u r d) = G4 V c (((cfg0.win 4).blk t).view.emb (ix3 u r d))
  refine (k0_pay3_apply _ u r d).trans ?_
  obtain ⟨a0, a1, a2, -, -, -, -, -, -, -, f0, f1, f2⟩ := idx_facts0 t
  have hu : u.val = 0 := by omega
  have e0 : ((cfg0.win 0).blk t).view.emb (ix3 (0 : Fin 1) r d) = ((cfg0.win 4).blk t).view.emb (ix3 u r d) := by
    funext a; apply Fin.ext
    match a with
    | ⟨0, _⟩ => show win0_0.index t (0 : Fin 3) * 1 + 1 * (0 : Fin 1).val = win0_4.index t (0 : Fin 3) * 1 + 1 * u.val; omega
    | ⟨1, _⟩ => show win0_0.index t (1 : Fin 3) * 512 + 1 * r.val = win0_4.index t (1 : Fin 3) * 512 + 1 * r.val; omega
    | ⟨2, _⟩ => show win0_0.index t (2 : Fin 3) * 1024 + 1 * d.val = win0_4.index t (2 : Fin 3) * 1024 + 1 * d.val; omega
  show xAt V c (((cfg0.win 0).blk t).view.emb (ix3 (0 : Fin 1) r d)) = xAt V c (((cfg0.win 4).blk t).view.emb (ix3 u r d))
  rw [e0]

theorem mem_blk3 (t : Fin cfg0.N) (i : S8x2048x1024.Idx) :
    i ∈ ((cfg0.win 3).blk t).view.set ↔ ∀ a : Fin 3, win0_3.index t a * S1x512x1024.size a ≤ (i a).val ∧ (i a).val < win0_3.index t a * S1x512x1024.size a + S1x512x1024.size a := by
  show i ∈ ((View.whole main_v1_0).slice (win0_3.rect t)).set ↔ _
  rw [View.set_slice_whole, Rect.mem_set_unit]
  exact Iff.rfl

theorem mem_blk4 (t : Fin cfg0.N) (i : S8x2048x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v1_1).slice (win0_4.rect t)).set ↔ _
  rw [View.set_slice_whole, Rect.mem_set_unit]
  exact Iff.rfl

def ptOf (i : S8x2048x1024.Idx) : Fin cfg0.N :=
  ⟨(i 0).val * 4 + (i 1).val / 512, by
    have h0 : (i 0).val < 8 := (i 0).isLt
    have h1 : (i 1).val < 2048 := (i 1).isLt
    show _ < grid0.N
    rw [N_0]; omega⟩

theorem ptOf_val (i : S8x2048x1024.Idx) : (ptOf i).val = (i 0).val * 4 + (i 1).val / 512 := rfl

theorem cover3 (i : S8x2048x1024.Idx) :
    ∃ t : Fin cfg0.N, (cfg0.win 3).flush t = true ∧ i ∈ ((cfg0.win 3).blk t).view.set := by
  have h0 : (i 0).val < 8 := (i 0).isLt
  have h1 : (i 1).val < 2048 := (i 1).isLt
  have h2 : (i 2).val < 1024 := (i 2).isLt
  refine ⟨ptOf i, flush0_3 _, ?_⟩
  rw [mem_blk3]
  obtain ⟨-, -, -, -, -, -, -, d0, d1, d2, -, -, -⟩ := idx_facts0 (ptOf i)
  have hv := ptOf_val i
  intro a
  match a with
  | ⟨0, _⟩ => show win0_3.index (ptOf i) (0 : Fin 3) * 1 ≤ (i 0).val ∧ (i 0).val < win0_3.index (ptOf i) (0 : Fin 3) * 1 + 1; omega
  | ⟨1, _⟩ => show win0_3.index (ptOf i) (1 : Fin 3) * 512 ≤ (i 1).val ∧ (i 1).val < win0_3.index (ptOf i) (1 : Fin 3) * 512 + 512; omega
  | ⟨2, _⟩ => show win0_3.index (ptOf i) (2 : Fin 3) * 1024 ≤ (i 2).val ∧ (i 2).val < win0_3.index (ptOf i) (2 : Fin 3) * 1024 + 1024; omega

theorem cover4 (i : S8x2048x1024.Idx) :
    ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 1024 := (i 2).isLt
  refine ⟨ptOf i, flush0_4 _, ?_⟩
  rw [mem_blk4]
  obtain ⟨-, -, -, -, -, -, -, -, -, -, f0, f1, f2⟩ := idx_facts0 (ptOf i)
  have hv := ptOf_val i
  intro a
  match a with
  | ⟨0, _⟩ => show win0_4.index (ptOf i) (0 : Fin 3) * 1 ≤ (i 0).val ∧ (i 0).val < win0_4.index (ptOf i) (0 : Fin 3) * 1 + 1; omega
  | ⟨1, _⟩ => show win0_4.index (ptOf i) (1 : Fin 3) * 512 ≤ (i 1).val ∧ (i 1).val < win0_4.index (ptOf i) (1 : Fin 3) * 512 + 512; omega
  | ⟨2, _⟩ => show win0_4.index (ptOf i) (2 : Fin 3) * 1024 ≤ (i 2).val ∧ (i 2).val < win0_4.index (ptOf i) (2 : Fin 3) * 1024 + 1024; omega

theorem xp_value (c : Dev nD) (b : Fin 8) (t : Fin 2048) (e : Fin 1024) :
    (dat0 (F := Ideal) V c).arrAt 3 cfg0.N (ix3 b t e)
      = Spec.proj (fun b t d => V c main_arg0 (ix3 b t d)) (fun d e => V c main_arg1 (ix2 d e)) (fun e => V c main_v0 (ix2 0 e)) b t e :=
  congrFun ((dat0 (F := Ideal) V c).arrAt_eq_of_cover 3 (G3 V c) (fun t _ => flushed3_eq V c t) cover3) (ix3 b t e)

theorem xraw_value (c : Dev nD) (b : Fin 8) (t : Fin 2048) (d : Fin 1024) :
    (dat0 (F := Ideal) V c).arrAt 4 cfg0.N (ix3 b t d) = V c main_arg0 (ix3 b t d) :=
  congrFun ((dat0 (F := Ideal) V c).arrAt_eq_of_cover 4 (G4 V c) (fun t _ => flushed4_eq V c t) cover4) (ix3 b t d)
end Arrays

end Cert.KernelIdeal.Val

end
-- ==== Proof.Val.V1Pay.lean ====
import proofs.«138723_j18210661335624_2_alg».proof.Proof.Gen.KernelIdeal.Skeleton
import proofs.«138723_j18210661335624_2_alg».proof.Proof.Spec
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws
import Idealize.ShloMosaic.PureOps.IdealRules

noncomputable section

namespace Cert.KernelIdeal.Val

open Cert.KernelIdeal Cert.KernelIdeal.Gen Idealize.ShloMosaic Idealize.ShloMosaic.ValueIdx

theorem pay1_apply (i : Fin 1024) : (k1_pay1 (F := Ideal)) (ix2 0 i) = ⊥ := by
  show Ideal.ofBits .f32 0xFF800000#32 = ⊥
  simp [Ideal.ofBits, Ideal.ieee]

theorem pay2_apply (i : Fin 1024) : (k1_pay2 (F := Ideal)) (ix2 0 i) = 0 := by
  show Ideal.ofBits .f32 0x00000000#32 = 0
  exact Ideal.ofBits_zero_f32

theorem pay3_eq (v : FVec Ideal S1x1024 .f32) : k1_pay3 v = v := by
  unfold k1_pay3
  exact shapeCast_self v _

theorem pay4_apply (v9 v10 : Vec Ideal S1x1024 .f32) (i : Fin 1024) :
    k1_pay4 v9 v10 (ix3 0 0 i) = v9 (ix2 0 i) + Ideal.log (v10 (ix2 0 i)) := by
  unfold k1_pay4
  refine (shapeCast_ab_1ab_apply _ _ 0 0 i).trans ?_
  rfl

namespace R1

theorem lhs_corr_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_corr_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_corr_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_corr_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

theorem corr_apply (l r : FVec Ideal S1024x1024 .bf16) (j i : Fin 1024) :
    matmul dot_S1024x1024_S1024x1024_S1024x1024_1_1_0_0_n_n none l r (constant (F := Ideal) S1024x1024 .f32 0x00000000#32) (ix2 j i)
      = ∑ e : Fin 1024, l (ix2 j e) * r (ix2 i e) := by
  simp only [matmul]
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 j i) ((ValueIdx.contrEquiv1 dot_S1024x1024_S1024x1024_S1024x1024_1_1_0_0_n_n 1024 rfl rfl).symm k) = ix2 j k := funext fun a => Fin.ext (by
    match a with
    | ⟨0, _⟩ => exact lhs_corr_0 _ _
    | ⟨1, _⟩ => exact (lhs_corr_1 _ _).trans hk)
  have er : dot_S1024x1024_S1024x1024_S1024x1024_1_1_0_0_n_n.rhsIdx (ix2 j i) ((ValueIdx.contrEquiv1 dot_S1024x1024_S1024x1024_S1024x1024_1_1_0_0_n_n 1024 rfl rfl).symm k) = ix2 i k := funext fun a => Fin.ext (by
    match a with
    | ⟨0, _⟩ => exact rhs_corr_0 _ _
    | ⟨1, _⟩ => exact (rhs_corr_1 _ _).trans hk)
  rw [el, er]

theorem toInt_ofNat_small (n : ℕ) (h : n < 2 ^ 31) : (BitVec.ofNat 32 n).toInt = (n : ℤ) := by
  have h1 : (BitVec.ofNat 32 n).toNat = n := by rw [BitVec.toNat_ofNat]; omega
  rw [BitVec.toInt_eq_toNat_of_lt (by rw [h1]; omega), h1]

theorem pos_word (B : ℕ) (hB : B < 2) (r : Fin 1024) :
    IntOp.addi (Scalar.muli (BitVec.ofNat 32 B) 1024#32) (BitVec.ofNat 32 r.val) = BitVec.ofNat 32 (B * 1024 + r.val) := by
  apply BitVec.eq_of_toNat_eq
  show ((BitVec.ofNat 32 B) * 1024#32 + BitVec.ofNat 32 r.val).toNat = _
  simp only [BitVec.toNat_add, BitVec.toNat_mul, BitVec.toNat_ofNat]
  have := r.isLt
  omega

theorem mask_apply (Q K : ℕ) (hQ : Q < 2) (hK : K < 2) (j i : Fin 1024) :
    cmpi .sge
        (addi (broadcast S1024x1024 (Scalar.muli (BitVec.ofNat 32 K) 1024#32)) (iota .tc S1024x1024 32 [0] iota_S1024x1024_d0_w32))
        (addi (broadcast S1024x1024 (Scalar.muli (BitVec.ofNat 32 Q) 1024#32)) (iota .tc S1024x1024 32 [1] iota_S1024x1024_d1_w32))
        (ix2 j i)
      = if Q * 1024 + i.val ≤ K * 1024 + j.val then 1#1 else 0#1 := by
  show IntOp.cmpi .sge
      (IntOp.addi (Scalar.muli (BitVec.ofNat 32 K) 1024#32) (iota .tc S1024x1024 32 [0] iota_S1024x1024_d0_w32 (ix2 j i)))
      (IntOp.addi (Scalar.muli (BitVec.ofNat 32 Q) 1024#32) (iota .tc S1024x1024 32 [1] iota_S1024x1024_d1_w32 (ix2 j i))) = _
  rw [iota_single_apply, iota_single_apply]
  show IntOp.cmpi .sge (IntOp.addi (Scalar.muli (BitVec.ofNat 32 K) 1024#32) (BitVec.ofNat 32 j.val))
      (IntOp.addi (Scalar.muli (BitVec.ofNat 32 Q) 1024#32) (BitVec.ofNat 32 i.val)) = _
  rw [pos_word K hK j, pos_word Q hQ i]
  have hj := j.isLt
  have hi := i.isLt
  have eK := toInt_ofNat_small (K * 1024 + j.val) (by omega)
  have eQ := toInt_ofNat_small (Q * 1024 + i.val) (by omega)
  by_cases h : Q * 1024 + i.val ≤ K * 1024 + j.val
  · rw [if_pos h]
    refine IntOp.cmpi_sge.mpr ?_
    rw [eK, eQ]
    exact_mod_cast h
  · rw [if_neg h]
    refine eq_zero_of_ne_one fun h1 => h ?_
    have := IntOp.cmpi_sge.mp h1
    rw [eK, eQ] at this
    exact_mod_cast this

def score (Q K : ℕ) (x0 x1 : Vec Ideal S1x1024x1024 .bf16) (j i : Fin 1024) : EReal :=
  if Q * 1024 + i.val ≤ K * 1024 + j.val then
    (∑ e : Fin 1024, (x1 (ix3 0 j e) : EReal) * (x0 (ix3 0 i e) : EReal)) * Ideal.ofBits .f32 0x3D000000#32
  else ⊥

theorem neg_big_eq : Named.named (F := Ideal) κ "neg_big" (φ := .f32) 0xFF333332#32 = ⊥ :=
  IdealRules.named_const.ideal_named_scalar _ _ _ _ rfl

theorem pay5_eq (a1 a2 : BitVec 32) (x0 x1 : Vec Ideal S1x1024x1024 .bf16) :
    k1_pay5 a1 a2 x0 x1
      = select
          (cmpi .sge
            (addi (broadcast S1024x1024 (Scalar.muli a2 1024#32)) (iota .tc S1024x1024 32 [0] iota_S1024x1024_d0_w32))
            (addi (broadcast S1024x1024 (Scalar.muli a1 1024#32)) (iota .tc S1024x1024 32 [1] iota_S1024x1024_d1_w32)))
          (mulf
            (matmul (φ₁ := .bf16) (φ₂ := .bf16) dot_S1024x1024_S1024x1024_S1024x1024_1_1_0_0_n_n none
              (shapeCast S1024x1024 x1 shapeCasts_S1x1024x1024_S1024x1024) (shapeCast S1024x1024 x0 shapeCasts_S1x1024x1024_S1024x1024)
              (constant (F := Ideal) S1024x1024 .f32 0x00000000#32))
            (broadcast S1024x1024 (Scalar.ofBits (F := Ideal) .f32 0x3D000000#32)))
          (broadcast S1024x1024 (Named.named (F := Ideal) κ "neg_big" (φ := .f32) 0xFF333332#32)) := rfl

theorem pay5_apply (Q K : ℕ) (hQ : Q < 2) (hK : K < 2) (x0 x1 : Vec Ideal S1x1024x1024 .bf16) (j i : Fin 1024) :
    k1_pay5 (BitVec.ofNat 32 Q) (BitVec.ofNat 32 K) x0 x1 (ix2 j i) = score Q K x0 x1 j i := by
  rw [pay5_eq, select_apply, mask_apply Q K hQ hK j i, mulf_apply, corr_apply, broadcast_apply, broadcast_apply, neg_big_eq]
  unfold score
  have e1 : ∀ e : Fin 1024, shapeCast S1024x1024 x1 shapeCasts_S1x1024x1024_S1024x1024 (ix2 j e) = x1 (ix3 0 j e) :=
    fun e => shapeCast_1ab_ab_apply x1 _ j e
  have e0 : ∀ e : Fin 1024, shapeCast S1024x1024 x0 shapeCasts_S1x1024x1024_S1024x1024 (ix2 i e) = x0 (ix3 0 i e) :=
    fun e => shapeCast_1ab_ab_apply x0 _ i e
  simp only [e1, e0]
  by_cases h : Q * 1024 + i.val ≤ K * 1024 + j.val
  · rw [if_pos h, if_pos h, select_one]
    rfl
  · rw [if_neg h, if_neg h, select_zero]

theorem score_eq_ksc (p : Fin 8 → Fin 2048 → Fin 1024 → EReal) (b : Fin 8) (Q K : Fin 2)
    (x0 x1 : Vec Ideal S1x1024x1024 .bf16)
    (h0 : ∀ i e, x0 (ix3 0 i e) = p b (Spec.row Q i) e) (h1 : ∀ j e, x1 (ix3 0 j e) = p b (Spec.row K j) e)
    (j i : Fin 1024) :
    score Q.val K.val x0 x1 j i = Spec.ksc (Ideal.ofBits .f32 0x3D000000#32) ⊥ p b (Spec.row K j) (Spec.row Q i) := by
  have hle : (Spec.row Q i ≤ Spec.row K j) ↔ (Q.val * 1024 + i.val ≤ K.val * 1024 + j.val) := Iff.rfl
  unfold score Spec.ksc Spec.corr
  simp only [h0, h1]
  by_cases h : Q.val * 1024 + i.val ≤ K.val * 1024 + j.val
  · rw [if_pos h, if_pos (hle.mpr h)]
  · rw [if_neg h, if_neg (fun h' => h (hle.mp h'))]

theorem lift_row (i j : Fin 1024) : reduces_S1024x1024_S1024.lift (ix1 i) j = ix2 j i := by
  funext c
  apply Fin.ext
  match c with
  | ⟨0, _⟩ => rfl
  | ⟨1, _⟩ => rfl

theorem colmax_apply (src : FVec Ideal S1024x1024 .f32) (hφ : FKind.Formats .f32)
    (hacc : (0xFF800000#32 : BitVec 32) = FKind.maximumf.neutral .f32 hφ) (i : Fin 1024) :
    multiReduction .maximumf [0] S1024 src 0xFF800000#32 reduces_S1024x1024_S1024 hφ hacc (ix1 i)
      = (Finset.univ : Finset (Fin 1024)).fold max ⊥ (fun j => src (ix2 j i)) := by
  refine (Ideal.multiReduction_maximumf_single src _ reduces_S1024x1024_S1024 hφ hacc (ix1 i)).trans ?_
  show (Finset.univ : Finset (Fin 1024)).fold max (Ideal.ofBits .f32 0xFF800000#32)
      (fun j : Fin 1024 => src (reduces_S1024x1024_S1024.lift (ix1 i) j)) = _
  have hb : Ideal.ofBits .f32 0xFF800000#32 = ⊥ := by simp [Ideal.ofBits, Ideal.ieee]
  rw [hb]
  simp only [lift_row]

theorem colsum_apply (src : FVec Ideal S1024x1024 .f32) (hφ : FKind.Formats .f32)
    (hacc : (0x00000000#32 : BitVec 32) = FKind.add.neutral .f32 hφ) (i : Fin 1024) :
    multiReduction .add [0] S1024 src 0x00000000#32 reduces_S1024x1024_S1024 hφ hacc (ix1 i)
      = ∑ j : Fin 1024, src (ix2 j i) := by
  refine (Ideal.multiReduction_add_single src _ reduces_S1024x1024_S1024 hφ hacc (ix1 i)).trans ?_
  show ∑ j : Fin 1024, src (reduces_S1024x1024_S1024.lift (ix1 i) j) = _
  simp only [lift_row]

theorem pay7_eq (a1 a2 : BitVec 32) (x0 x1 : Vec Ideal S1x1024x1024 .bf16) (v27 v31 v37 : Vec Ideal S1x1024 .f32) :
    k1_pay7 a1 a2 x0 x1 v27 v31 v37
      = shapeCast S1x1024
          (addf (mulf (exp (subf v31 (k1_pay6 a1 a2 x0 x1 v27))) v37)
            (shapeCast S1x1024
              (multiReduction .add [0] S1024
                (exp (subf (k1_pay5 a1 a2 x0 x1) (broadcastTo S1024x1024 (k1_pay6 a1 a2 x0 x1 v27) broadcasts_S1x1024_S1024x1024)))
                0x00000000#32 reduces_S1024x1024_S1024 (.inl rfl) rfl)
              shapeCasts_S1024_S1x1024))
          shapeCasts_S1x1024_S1x1024 := rfl

end R1

open R1

theorem pay5_ksc (p : Fin 8 → Fin 2048 → Fin 1024 → EReal) (b : Fin 8) (Q K : Fin 2)
    (x0 x1 : Vec Ideal S1x1024x1024 .bf16)
    (h0 : ∀ i e, x0 (ix3 0 i e) = p b (Spec.row Q i) e) (h1 : ∀ j e, x1 (ix3 0 j e) = p b (Spec.row K j) e)
    (j i : Fin 1024) :
    k1_pay5 (BitVec.ofNat 32 Q.val) (BitVec.ofNat 32 K.val) x0 x1 (ix2 j i)
      = Spec.ksc (Ideal.ofBits .f32 0x3D000000#32) ⊥ p b (Spec.row K j) (Spec.row Q i) :=
  (pay5_apply Q.val K.val Q.isLt K.isLt x0 x1 j i).trans (score_eq_ksc p b Q K x0 x1 h0 h1 j i)

theorem pay6_apply (p : Fin 8 → Fin 2048 → Fin 1024 → EReal) (b : Fin 8) (Q K : Fin 2)
    (x0 x1 : Vec Ideal S1x1024x1024 .bf16)
    (h0 : ∀ i e, x0 (ix3 0 i e) = p b (Spec.row Q i) e) (h1 : ∀ j e, x1 (ix3 0 j e) = p b (Spec.row K j) e)
    (v27 : Vec Ideal S1x1024 .f32) (i : Fin 1024) :
    k1_pay6 (BitVec.ofNat 32 Q.val) (BitVec.ofNat 32 K.val) x0 x1 v27 (ix2 0 i)
      = max (v27 (ix2 0 i)) (Spec.blkMax (Ideal.ofBits .f32 0x3D000000#32) ⊥ p b (Spec.row Q i) K) := by
  unfold k1_pay6
  refine (maximumf_apply _ _ _).trans ?_
  refine congrArg (max (v27 (ix2 0 i))) ?_
  refine (shapeCast_a_1a_apply _ _ 0 i).trans ?_
  refine (colmax_apply _ _ _ i).trans ?_
  unfold Spec.blkMax
  simp only [pay5_ksc p b Q K x0 x1 h0 h1]

theorem pay7_apply (p : Fin 8 → Fin 2048 → Fin 1024 → EReal) (b : Fin 8) (Q K : Fin 2)
    (x0 x1 : Vec Ideal S1x1024x1024 .bf16)
    (h0 : ∀ i e, x0 (ix3 0 i e) = p b (Spec.row Q i) e) (h1 : ∀ j e, x1 (ix3 0 j e) = p b (Spec.row K j) e)
    (v27 v31 v37 : Vec Ideal S1x1024 .f32) (i : Fin 1024) :
    k1_pay7 (BitVec.ofNat 32 Q.val) (BitVec.ofNat 32 K.val) x0 x1 v27 v31 v37 (ix2 0 i)
      = Ideal.exp (v31 (ix2 0 i) - max (v27 (ix2 0 i)) (Spec.blkMax (Ideal.ofBits .f32 0x3D000000#32) ⊥ p b (Spec.row Q i) K)) * v37 (ix2 0 i)
        + Spec.blkSum (Ideal.ofBits .f32 0x3D000000#32) ⊥ p b (Spec.row Q i) K
            (max (v27 (ix2 0 i)) (Spec.blkMax (Ideal.ofBits .f32 0x3D000000#32) ⊥ p b (Spec.row Q i) K)) := by
  have h6 := pay6_apply p b Q K x0 x1 h0 h1 v27 i
  rw [pay7_eq, shapeCast_self]
  refine (addf_apply _ _ _).trans ?_
  refine congrArg₂ (fun x y : EReal => x + y) ?_ ?_
  · show Ideal.exp (v31 (ix2 0 i) - k1_pay6 (BitVec.ofNat 32 Q.val) (BitVec.ofNat 32 K.val) x0 x1 v27 (ix2 0 i)) * v37 (ix2 0 i) = _
    rw [h6]
  · refine (shapeCast_a_1a_apply _ _ 0 i).trans ?_
    refine (colsum_apply _ _ _ i).trans ?_
    unfold Spec.blkSum
    refine Finset.sum_congr rfl fun j _ => ?_
    show Ideal.exp (k1_pay5 (BitVec.ofNat 32 Q.val) (BitVec.ofNat 32 K.val) x0 x1 (ix2 j i)
      - broadcastTo S1024x1024 (k1_pay6 (BitVec.ofNat 32 Q.val) (BitVec.ofNat 32 K.val) x0 x1 v27) broadcasts_S1x1024_S1024x1024 (ix2 j i)) = _
    rw [broadcastTo_1b_ab_apply, h6, pay5_ksc p b Q K x0 x1 h0 h1]

theorem pay67_step (p : Fin 8 → Fin 2048 → Fin 1024 → EReal) (b : Fin 8) (Q K : Fin 2)
    (x0 x1 : Vec Ideal S1x1024x1024 .bf16)
    (h0 : ∀ i e, x0 (ix3 0 i e) = p b (Spec.row Q i) e) (h1 : ∀ j e, x1 (ix3 0 j e) = p b (Spec.row K j) e)
    (m l : Vec Ideal S1x1024 .f32) (i : Fin 1024) :
    (k1_pay6 (BitVec.ofNat 32 Q.val) (BitVec.ofNat 32 K.val) x0 x1 m (ix2 0 i),
     k1_pay7 (BitVec.ofNat 32 Q.val) (BitVec.ofNat 32 K.val) x0 x1 m m l (ix2 0 i))
      = Spec.step (Ideal.ofBits .f32 0x3D000000#32) ⊥ p b (Spec.row Q i) K (m (ix2 0 i), l (ix2 0 i)) := by
  rw [pay6_apply p b Q K x0 x1 h0 h1 m i, pay7_apply p b Q K x0 x1 h0 h1 m m l i]
  rfl

end Cert.KernelIdeal.Val

end
-- ==== Proof.Val.V1.lean ====
import proofs.«138723_j18210661335624_2_alg».proof.Proof.KI.R1
import proofs.«138723_j18210661335624_2_alg».proof.Proof.Val.V1Pay
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.SL.Sem ValueIdx
open Idealize.ShloMosaic.Pipeline (Dat)

section Pieces

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1024 .f32) (harg7 : arg7.IsWhole)
theorem soutA0_eq (hc0 : cond1_0 i) (hc1 : cond1_1 i) (hc2 : ¬cond1_2 i)
    (x0 x1 : Vec F S1x1024x1024 .bf16) :
    sout1_A_0 c i arg3 harg3 arg4 harg4 arg5 harg5 arg6 harg6 arg7 harg7 hc0 hc1 hc2 x0 x1 = k1_pay3 (k1_pay6 (BitVec.ofNat 32 (i 1).val) (BitVec.ofNat 32 (i 2).val) x0 x1 k1_pay1) := by
  unfold sout1_A_0
  rw [View.read_writes_eq_canon _ _ _ (scover1_A_0 c i arg3 harg3 arg4 harg4 arg5 harg5 arg6 harg6 arg7 harg7 hc0 hc1 hc2 x0 x1)]
  unfold kernelRun1_A
  dsimp only
  try sl_unfold_words
  rw [View.canon_cons_unit_zero (S := S1x1024) hz2, View.readCov_unit_zero (S := S1x1024) _ hz2]
  simp only [View.readAt_eq_ld, harg3.read_unread, harg4.read_unread, View.ld_unit_zero (S := S1x1024x1024) hz3]

theorem soutA1_eq (hc0 : cond1_0 i) (hc1 : cond1_1 i) (hc2 : ¬cond1_2 i)
    (x0 x1 : Vec F S1x1024x1024 .bf16) :
    sout1_A_1 c i arg3 harg3 arg4 harg4 arg5 harg5 arg6 harg6 arg7 harg7 hc0 hc1 hc2 x0 x1 = k1_pay7 (BitVec.ofNat 32 (i 1).val) (BitVec.ofNat 32 (i 2).val) x0 x1 k1_pay1 k1_pay1 k1_pay2 := by
  unfold sout1_A_1
  rw [View.read_writes_eq_canon _ _ _ (scover1_A_1 c i arg3 harg3 arg4 harg4 arg5 harg5 arg6 harg6 arg7 harg7 hc0 hc1 hc2 x0 x1)]
  unfold kernelRun1_A
  dsimp only
  try sl_unfold_words
  rw [View.canon_cons_unit_zero (S := S1x1024) hz2]
  simp only [View.readCov_unit_zero (S := S1x1024) arg6.view hz2, View.readCov_unit_zero (S := S1x1024) arg7.view hz2, View.readAt_eq_ld, harg3.read_unread, harg4.read_unread, View.ld_unit_zero (S := S1x1024x1024) hz3]

theorem soutB0_eq (hc0 : cond1_0 i) (hc1 : ¬cond1_1 i) (hc2 : ¬cond1_2 i)
    (x0 x1 : Vec F S1x1024x1024 .bf16) :
    sout1_B_0 c i arg3 harg3 arg4 harg4 arg5 harg5 arg6 harg6 arg7 harg7 hc0 hc1 hc2 x0 x1 = k1_pay1 := by
  unfold sout1_B_0
  rw [View.read_writes_eq_canon _ _ _ (scover1_B_0 c i arg3 harg3 arg4 harg4 arg5 harg5 arg6 harg6 arg7 harg7 hc0 hc1 hc2 x0 x1)]
  unfold kernelRun1_B
  dsimp only
  try sl_unfold_words
  rw [View.canon_unit_zero (S := S1x1024) hz2]

theorem soutB1_eq (hc0 : cond1_0 i) (hc1 : ¬cond1_1 i) (hc2 : ¬cond1_2 i)
    (x0 x1 : Vec F S1x1024x1024 .bf16) :
    sout1_B_1 c i arg3 harg3 arg4 harg4 arg5 harg5 arg6 harg6 arg7 harg7 hc0 hc1 hc2 x0 x1 = k1_pay2 := by
  unfold sout1_B_1
  rw [View.read_writes_eq_canon _ _ _ (scover1_B_1 c i arg3 harg3 arg4 harg4 arg5 harg5 arg6 harg6 arg7 harg7 hc0 hc1 hc2 x0 x1)]
  unfold kernelRun1_B
  dsimp only
  try sl_unfold_words
  rw [View.canon_unit_zero (S := S1x1024) hz2]

theorem outC2_eq (hc0 : ¬cond1_0 i) (hc1 : cond1_1 i) (hc2 : cond1_2 i)
    (x0 x1 : Vec F S1x1024x1024 .bf16) (xs0 xs1 : Vec F S1x1024 .f32) :
    out1_C_2 c i arg3 harg3 arg4 harg4 arg5 harg5 arg6 harg6 arg7 harg7 hc0 hc1 hc2 x0 x1 xs0 xs1 = k1_pay4 (k1_pay3 (k1_pay6 (BitVec.ofNat 32 (i 1).val) (BitVec.ofNat 32 (i 2).val) x0 x1 xs0)) (k1_pay7 (BitVec.ofNat 32 (i 1).val) (BitVec.ofNat 32 (i 2).val) x0 x1 xs0 xs0 xs1) := by
  unfold out1_C_2
  rw [View.read_writes_eq_canon _ _ _ (cover1_C_2 c i arg3 harg3 arg4 harg4 arg5 harg5 arg6 harg6 arg7 harg7 hc0 hc1 hc2 x0 x1 xs0 xs1)]
  unfold kernelRun1_C
  dsimp only
  try sl_unfold_words
  rw [View.canon_unit_zero (S := S1x1x1024) hz3]
  simp only [View.readCov_unit_zero (S := S1x1024) arg6.view hz2, View.readCov_unit_zero (S := S1x1024) arg7.view hz2, View.readAt_eq_ld, harg3.read_unread, harg4.read_unread, View.ld_unit_zero (S := S1x1024x1024) hz3,
    harg6.read_unread, harg7.read_unread, View.ld_unit_zero (S := S1x1024) hz2]
end

end Pieces

section Blocks

variable {F : FTy → Type} [FloatOps F] [Named F]

theorem index1_0 : ∀ t : Fin cfg1.N, win1_0.index t 0 = t.val / 4 ∧ win1_0.index t 1 = (t.val / 2) % 2 ∧ win1_0.index t 2 = 0 :=
  (by decide +kernel : ∀ t : Fin grid1.N, win1_0.index t 0 = t.val / 4 ∧ win1_0.index t 1 = (t.val / 2) % 2 ∧ win1_0.index t 2 = 0)
theorem index1_1 : ∀ t : Fin cfg1.N, win1_1.index t 0 = t.val / 4 ∧ win1_1.index t 1 = t.val % 2 ∧ win1_1.index t 2 = 0 :=
  (by decide +kernel : ∀ t : Fin grid1.N, win1_1.index t 0 = t.val / 4 ∧ win1_1.index t 1 = t.val % 2 ∧ win1_1.index t 2 = 0)
theorem index1_2 : ∀ t : Fin cfg1.N, win1_2.index t 0 = t.val / 4 ∧ win1_2.index t 1 = 0 ∧ win1_2.index t 2 = (t.val / 2) % 2 :=
  (by decide +kernel : ∀ t : Fin grid1.N, win1_2.index t 0 = t.val / 4 ∧ win1_2.index t 1 = 0 ∧ win1_2.index t 2 = (t.val / 2) % 2)
theorem xsize1_2 : ∀ t : Fin cfg1.N, win1_2.xsize (grid1.coords t) 0 = 1 ∧ win1_2.xsize (grid1.coords t) 1 = 1 ∧ win1_2.xsize (grid1.coords t) 2 = 1024 :=
  (by decide +kernel : ∀ t : Fin grid1.N, win1_2.xsize (grid1.coords t) 0 = 1 ∧ win1_2.xsize (grid1.coords t) 1 = 1 ∧ win1_2.xsize (grid1.coords t) 2 = 1024)
theorem coords1 : ∀ t : Fin cfg1.N, ((grid1.coords t) 1).val = (t.val / 2) % 2 ∧ ((grid1.coords t) 2).val = t.val % 2 :=
  (by decide +kernel : ∀ t : Fin grid1.N, ((grid1.coords t) 1).val = (t.val / 2) % 2 ∧ ((grid1.coords t) 2).val = t.val % 2)

def bOf1 (t : Fin cfg1.N) : Fin 8 := ⟨t.val / 4, by have h : t.val < 32 := lt_of_lt_of_eq t.isLt N_1; omega⟩
def qOf (t : Fin cfg1.N) : Fin 2 := ⟨(t.val / 2) % 2, Nat.mod_lt _ (by decide)⟩
def kOf (t : Fin cfg1.N) : Fin 2 := ⟨t.val % 2, Nat.mod_lt _ (by decide)⟩

theorem coordQ (t : Fin cfg1.N) : ((grid1.coords t) 1).val = (qOf t).val := (coords1 t).1
theorem coordK (t : Fin cfg1.N) : ((grid1.coords t) 2).val = (kOf t).val := (coords1 t).2

theorem blk1_0_apply (c : Dev nD) (A : Buf (Elt F) ((c : Thread nD τ).loc main_v1_0)) (t : Fin cfg1.N) (x : S1x1024x1024.Idx) (k : S8x2048x1024.Idx)
    (hk0 : (k 0).val = t.val / 4 + (x 0).val) (hk1 : (k 1).val = ((t.val / 2) % 2) * 1024 + (x 1).val) (hk2 : (k 2).val = (x 2).val) :
    ((((cfg1.win 0).blk t).view.read (Elt F) A : Vec F S1x1024x1024 .bf16)) x = (A : S8x2048x1024.Idx → Elt F .bf16) k := by
  obtain ⟨i0, i1, i2⟩ := index1_0 t
  rw [View.read_apply]
  show (A : S8x2048x1024.Idx → Elt F .bf16) _ = A k
  congr 1
  funext a
  apply Fin.ext
  match a with
  | ⟨0, _⟩ => show win1_0.index t 0 * 1 + 1 * (x 0).val = (k 0).val; rw [i0, hk0]; omega
  | ⟨1, _⟩ => show win1_0.index t 1 * 1024 + 1 * (x 1).val = (k 1).val; rw [i1, hk1]; omega
  | ⟨2, _⟩ => show win1_0.index t 2 * 1024 + 1 * (x 2).val = (k 2).val; rw [i2, hk2]; omega

theorem blk1_1_apply (c : Dev nD) (A : Buf (Elt F) ((c : Thread nD τ).loc main_v1_0)) (t : Fin cfg1.N) (x : S1x1024x1024.Idx) (k : S8x2048x1024.Idx)
    (hk0 : (k 0).val = t.val / 4 + (x 0).val) (hk1 : (k 1).val = (t.val % 2) * 1024 + (x 1).val) (hk2 : (k 2).val = (x 2).val) :
    ((((cfg1.win 1).blk t).view.read (Elt F) A : Vec F S1x1024x1024 .bf16)) x = (A : S8x2048x1024.Idx → Elt F .bf16) k := by
  obtain ⟨i0, i1, i2⟩ := index1_1 t
  rw [View.read_apply]
  show (A : S8x2048x1024.Idx → Elt F .bf16) _ = A k
  congr 1
  funext a
  apply Fin.ext
  match a with
  | ⟨0, _⟩ => show win1_1.index t 0 * 1 + 1 * (x 0).val = (k 0).val; rw [i0, hk0]; omega
  | ⟨1, _⟩ => show win1_1.index t 1 * 1024 + 1 * (x 1).val = (k 1).val; rw [i1, hk1]; omega
  | ⟨2, _⟩ => show win1_1.index t 2 * 1024 + 1 * (x 2).val = (k 2).val; rw [i2, hk2]; omega

theorem blk1_0_ix (c : Dev nD) (A : Buf (Elt F) ((c : Thread nD τ).loc main_v1_0)) (t : Fin cfg1.N) (j : Fin 1024) (e : Fin 1024) :
    ((((cfg1.win 0).blk t).view.read (Elt F) A : Vec F S1x1024x1024 .bf16)) (ix3 0 j e)
      = (A : S8x2048x1024.Idx → Elt F .bf16) (ix3 (bOf1 t) (Spec.row (qOf t) j) e) :=
  blk1_0_apply c A t _ _ (by show _ = _ + 0; rfl) rfl rfl

theorem blk1_1_ix (c : Dev nD) (A : Buf (Elt F) ((c : Thread nD τ).loc main_v1_0)) (t : Fin cfg1.N) (j : Fin 1024) (e : Fin 1024) :
    ((((cfg1.win 1).blk t).view.read (Elt F) A : Vec F S1x1024x1024 .bf16)) (ix3 0 j e)
      = (A : S8x2048x1024.Idx → Elt F .bf16) (ix3 (bOf1 t) (Spec.row (kOf t) j) e) :=
  blk1_1_apply c A t _ _ (by show _ = _ + 0; rfl) rfl rfl

theorem blk1_2_ix (c : Dev nD) (G : Buf (Elt F) ((c : Thread nD τ).loc main_v2)) (t : Fin cfg1.N) (i : Fin 1024) :
    ((((cfg1.win 2).blk t).view.read (Elt F) G : Vec F S1x1x1024 .f32)) (ix3 0 0 i)
      = (G : S8x1x2048.Idx → Elt F .f32) (ix3 (bOf1 t) 0 (Spec.row (qOf t) i)) := by
  obtain ⟨i0, i1, i2⟩ := index1_2 t
  rw [View.read_apply]
  show (G : S8x1x2048.Idx → Elt F .f32) _ = G _
  congr 1
  funext a
  apply Fin.ext
  match a with
  | ⟨0, _⟩ => show win1_2.index t 0 * 1 + 1 * 0 = t.val / 4; rw [i0]; omega
  | ⟨1, _⟩ => show win1_2.index t 1 * 1 + 1 * 0 = 0; rw [i1]
  | ⟨2, _⟩ => show win1_2.index t 2 * 1024 + 1 * i.val = (t.val / 2) % 2 * 1024 + i.val; rw [i2]; omega

theorem cover1_2 (c : Dev nD) (i : S8x1x2048.Idx) :
    ∃ t : Fin cfg1.N, (cfg1.win 2).flush t = true ∧ i ∈ ((cfg1.win 2).blk t).view.set := by
  have h0 : (i 0 : Nat) < 8 := (i 0).isLt
  have h1 : (i 1 : Nat) < 1 := (i 1).isLt
  have h2 : (i 2 : Nat) < 2048 := (i 2).isLt
  have hN : cfg1.N = 32 := N_1
  refine ⟨⟨(i 0).val * 4 + ((i 2).val / 1024) * 2 + 1, by rw [hN]; omega⟩, (flush1_2 _).mpr (by show ((i 0).val * 4 + ((i 2).val / 1024) * 2 + 1) % 2 = 1; omega), ?_⟩
  generalize ht : (⟨(i 0).val * 4 + ((i 2).val / 1024) * 2 + 1, _⟩ : Fin cfg1.N) = t
  have htv : t.val = (i 0).val * 4 + ((i 2).val / 1024) * 2 + 1 := by rw [← ht]
  obtain ⟨i0, i1, i2⟩ := index1_2 t
  obtain ⟨x0, x1, x2⟩ := xsize1_2 t
  show i ∈ ((View.whole main_v2).slice (win1_2.rect t)).set
  rw [View.set_slice_whole, Rect.mem_set_unit]
  intro a
  match a with
  | ⟨0, _⟩ => show win1_2.index t 0 * 1 ≤ (i 0 : Nat) ∧ (i 0 : Nat) < win1_2.index t 0 * 1 + win1_2.xsize (grid1.coords t) 0
              rw [i0, x0, htv]; omega
  | ⟨1, _⟩ => show win1_2.index t 1 * 1 ≤ (i 1 : Nat) ∧ (i 1 : Nat) < win1_2.index t 1 * 1 + win1_2.xsize (grid1.coords t) 1
              rw [i1, x1]; omega
  | ⟨2, _⟩ => show win1_2.index t 2 * 1024 ≤ (i 2 : Nat) ∧ (i 2 : Nat) < win1_2.index t 2 * 1024 + win1_2.xsize (grid1.coords t) 2
              rw [i2, x2, htv]; omega

end Blocks

theorem reset_update_pair (p : Fin 8 → Fin 2048 → Fin 1024 → EReal) (b : Fin 8) (Q K : Fin 2) (a1 a2 : BitVec 32)
    (ha1 : a1 = BitVec.ofNat 32 Q.val) (ha2 : a2 = BitVec.ofNat 32 K.val)
    (x0 x1 : Vec Ideal S1x1024x1024 .bf16)
    (h0 : ∀ i e, x0 (ix3 0 i e) = p b (Spec.row Q i) e) (h1 : ∀ j e, x1 (ix3 0 j e) = p b (Spec.row K j) e) (i : Fin 1024) :
    (k1_pay3 (k1_pay6 a1 a2 x0 x1 (k1_pay1 (F := Ideal))) (ix2 0 i),
     k1_pay7 a1 a2 x0 x1 (k1_pay1 (F := Ideal)) (k1_pay1 (F := Ideal)) (k1_pay2 (F := Ideal)) (ix2 0 i))
      = Spec.step (Ideal.ofBits .f32 0x3D000000#32) ⊥ p b (Spec.row Q i) K (⊥, 0) := by
  subst ha1 ha2
  rw [pay3_eq]
  refine (pay67_step p b Q K x0 x1 h0 h1 (k1_pay1 (F := Ideal)) (k1_pay2 (F := Ideal)) i).trans ?_
  rw [pay1_apply, pay2_apply]

theorem update_store (p : Fin 8 → Fin 2048 → Fin 1024 → EReal) (b : Fin 8) (Q K : Fin 2) (a1 a2 : BitVec 32)
    (ha1 : a1 = BitVec.ofNat 32 Q.val) (ha2 : a2 = BitVec.ofNat 32 K.val)
    (x0 x1 : Vec Ideal S1x1024x1024 .bf16)
    (h0 : ∀ i e, x0 (ix3 0 i e) = p b (Spec.row Q i) e) (h1 : ∀ j e, x1 (ix3 0 j e) = p b (Spec.row K j) e)
    (xs0 xs1 : Vec Ideal S1x1024 .f32) (i : Fin 1024) :
    k1_pay4 (k1_pay3 (k1_pay6 a1 a2 x0 x1 xs0)) (k1_pay7 a1 a2 x0 x1 xs0 xs0 xs1) (ix3 0 0 i)
      = (Spec.step (Ideal.ofBits .f32 0x3D000000#32) ⊥ p b (Spec.row Q i) K (xs0 (ix2 0 i), xs1 (ix2 0 i))).1
        + Ideal.log (Spec.step (Ideal.ofBits .f32 0x3D000000#32) ⊥ p b (Spec.row Q i) K (xs0 (ix2 0 i), xs1 (ix2 0 i))).2 := by
  subst ha1 ha2
  rw [pay4_apply, pay3_eq, ← pay67_step p b Q K x0 x1 h0 h1 xs0 xs1 i]

theorem stats_row (c neg : EReal) (p : Fin 8 → Fin 2048 → Fin 1024 → EReal) (b : Fin 8) (Q : Fin 2) (i : Fin 1024) :
    Spec.stats c neg p b (Spec.row Q i)
      = if Q.val = 0 then Spec.step c neg p b (Spec.row Q i) 1 (Spec.step c neg p b (Spec.row Q i) 0 (⊥, 0))
        else Spec.step c neg p b (Spec.row Q i) 1 (⊥, 0) := by
  have hQ := Q.isLt
  have hi := i.isLt
  unfold Spec.stats
  by_cases h : Q.val = 0
  · rw [if_pos h, if_pos (by show Q.val * 1024 + i.val < 1024; omega)]
  · rw [if_neg h, if_neg (by show ¬ Q.val * 1024 + i.val < 1024; omega)]

section Values

variable (V : (c : Dev nD) → (b : Ref sig .tc) → Buf (Elt Ideal) ((c : Thread nD τ).loc b))

def xpAt (c : Dev nD) : Fin 8 → Fin 2048 → Fin 1024 → EReal := fun b t e => V c main_v1_0 (ix3 b t e)

theorem iblk1_0_rows (c : Dev nD) (t : Fin cfg1.N) (i : Fin 1024) (e : Fin 1024) :
    (iblk1 V c 0 t : Vec Ideal S1x1024x1024 .bf16) (ix3 0 i e) = xpAt V c (bOf1 t) (Spec.row (qOf t) i) e := by
  unfold iblk1
  exact blk1_0_ix c (V c main_v1_0) t i e

theorem iblk1_1_rows (c : Dev nD) (t : Fin cfg1.N) (j : Fin 1024) (e : Fin 1024) :
    (iblk1 V c 1 t : Vec Ideal S1x1024x1024 .bf16) (ix3 0 j e) = xpAt V c (bOf1 t) (Spec.row (kOf t) j) e := by
  unfold iblk1
  exact blk1_1_ix c (V c main_v1_0) t j e

theorem scratch_even (c : Dev nD) (t : Fin cfg1.N) (h0 : t.val % 2 = 0) (i : Fin 1024) :
    ((outsAt1 V c t.val t.isLt).2.1 (ix2 0 i), (outsAt1 V c t.val t.isLt).2.2 (ix2 0 i))
      = if (qOf t).val = 0 then Spec.step (Ideal.ofBits .f32 0x3D000000#32) ⊥ (xpAt V c) (bOf1 t) (Spec.row (qOf t) i) 0 (⊥, 0)
        else ((⊥ : EReal), (0 : EReal)) := by
  have h2 : ¬ t.val % 2 = 1 := by omega
  by_cases h1 : (t.val / 2) % 2 ≤ t.val % 2
  · rw [outsAt1_A V c t h0 h1 h2]
    dsimp only
    rw [soutA0_eq, soutA1_eq]
    rw [if_pos (show (qOf t).val = 0 from by show (t.val / 2) % 2 = 0; omega)]
    have hK : kOf t = 0 := Fin.ext (by show t.val % 2 = 0; exact h0)
    have key := reset_update_pair (xpAt V c) (bOf1 t) (qOf t) (kOf t) _ _ (congrArg (BitVec.ofNat 32) (coordQ t)) (congrArg (BitVec.ofNat 32) (coordK t))
      (iblk1 V c 0 t) (iblk1 V c 1 t) (iblk1_0_rows V c t) (iblk1_1_rows V c t) i
    rw [hK] at key
    exact key
  · rw [outsAt1_B V c t h0 h1 h2]
    dsimp only
    rw [soutB0_eq, soutB1_eq]
    rw [if_neg (show ¬ (qOf t).val = 0 from by show ¬ (t.val / 2) % 2 = 0; omega)]
    rw [pay1_apply, pay2_apply]

theorem out_odd (c : Dev nD) (t : Fin cfg1.N) (h2 : t.val % 2 = 1) (i : Fin 1024) :
    (outsAt1 V c t.val t.isLt).1 (ix3 0 0 i)
      = Spec.lseK (Ideal.ofBits .f32 0x3D000000#32) ⊥ (xpAt V c) (bOf1 t) (Spec.row (qOf t) i) := by
  have h0 : ¬ t.val % 2 = 0 := by omega
  have h1 : (t.val / 2) % 2 ≤ t.val % 2 := by have := Nat.mod_lt (t.val / 2) (by decide : 0 < 2); omega
  have hlt : t.val - 1 < cfg1.N := Nat.lt_of_le_of_lt (Nat.sub_le _ _) t.isLt
  have hprev := scratch_even V c ⟨t.val - 1, hlt⟩ (by show (t.val - 1) % 2 = 0; omega) i
  have hb : bOf1 ⟨t.val - 1, hlt⟩ = bOf1 t := Fin.ext (by show (t.val - 1) / 4 = t.val / 4; omega)
  have hq : qOf ⟨t.val - 1, hlt⟩ = qOf t := Fin.ext (by show ((t.val - 1) / 2) % 2 = (t.val / 2) % 2; omega)
  rw [hb, hq] at hprev
  have hK : kOf t = 1 := Fin.ext (by show t.val % 2 = 1; exact h2)
  rw [outsAt1_C V c t h0 h1 h2]
  dsimp only
  rw [outC2_eq]
  refine (update_store (xpAt V c) (bOf1 t) (qOf t) (kOf t) _ _ (congrArg (BitVec.ofNat 32) (coordQ t)) (congrArg (BitVec.ofNat 32) (coordK t))
      (iblk1 V c 0 t) (iblk1 V c 1 t) (iblk1_0_rows V c t) (iblk1_1_rows V c t)
      (outsAt1 V c (t.val - 1) hlt).2.1 (outsAt1 V c (t.val - 1) hlt).2.2 i).trans ?_
  rw [hK]
  have hprev' : ((outsAt1 V c (t.val - 1) hlt).2.1 (ix2 0 i), (outsAt1 V c (t.val - 1) hlt).2.2 (ix2 0 i))
      = if (qOf t).val = 0 then Spec.step (Ideal.ofBits .f32 0x3D000000#32) ⊥ (xpAt V c) (bOf1 t) (Spec.row (qOf t) i) 0 (⊥, 0)
        else ((⊥ : EReal), (0 : EReal)) := hprev
  rw [hprev']
  unfold Spec.lseK
  rw [stats_row]
  by_cases hQ : (qOf t).val = 0
  · rw [if_pos hQ, if_pos hQ]
  · rw [if_neg hQ, if_neg hQ]

def lseArr (c : Dev nD) : Buf (Elt Ideal) ((c : Thread nD τ).loc main_v2) :=
  fun (i : S8x1x2048.Idx) => Spec.lseK (Ideal.ofBits .f32 0x3D000000#32) ⊥ (xpAt V c) ⟨(i 0).val, (i 0).isLt⟩ ⟨(i 2).val, (i 2).isLt⟩

theorem out_odd_read (c : Dev nD) (t : Fin cfg1.N) (h2 : t.val % 2 = 1) (x : S1x1x1024.Idx) :
    (outsAt1 V c t.val t.isLt).1 x = (((cfg1.win 2).blk t).view.read (Elt Ideal) (lseArr V c) : Vec Ideal S1x1x1024 .f32) x := by
  have hx0 : (x 0).val < 1 := (x 0).isLt
  have hx1 : (x 1).val < 1 := (x 1).isLt
  obtain ⟨i, rfl⟩ : ∃ i : Fin 1024, x = ix3 0 0 i := ⟨⟨(x 2).val, (x 2).isLt⟩, by
    funext a
    match a with
    | ⟨0, _⟩ => exact Fin.ext (by show (x 0).val = 0; omega)
    | ⟨1, _⟩ => exact Fin.ext (by show (x 1).val = 0; omega)
    | ⟨2, _⟩ => rfl⟩
  rw [out_odd V c t h2 i, blk1_2_ix c (lseArr V c) t i]
  rfl

theorem flushed1_2 (c : Dev nD) (t : Fin cfg1.N) (hf : (cfg1.win 2).flush t = true) :
    (dat1 V c).flushed 2 t = ((cfg1.win 2).blk t).view.read (Elt Ideal) (lseArr V c) := by
  have h2 : t.val % 2 = 1 := (flush1_2 t).mp hf
  show (cfg1.win 2).cut (grid1.coords t) ((dat1 V c).after 2 t) = _
  rw [after1_2]
  exact funext (out_odd_read V c t h2)

theorem lse_value (c : Dev nD) (b : Fin 8) (s : Fin 2048) :
    (dat1 (F := Ideal) V c).arrAt 2 cfg1.N (ix3 b 0 s)
      = Spec.lseK (Ideal.ofBits .f32 0x3D000000#32) ⊥ (fun b t e => V c main_v1_0 (ix3 b t e)) b s := by
  have h := (dat1 V c).arrAt_eq_of_cover 2 (lseArr V c) (flushed1_2 V c) (fun i => cover1_2 c i)
  rw [h]
  rfl

end Values

end Cert.KernelIdeal.Val

end
-- ==== Proof.Val.V2Pieces.lean ====
import proofs.«138723_j18210661335624_2_alg».proof.Proof.KI.R2
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.SL.Sem

variable {F : FTy → Type} [FloatOps F] [Named F]

theorem zero2 : (![0, 0] : Fin 2 → Nat) = fun _ => 0 := funext fun a => by fin_cases a <;> rfl
theorem zero3 : (![0, 0, 0] : Fin 3 → Nat) = fun _ => 0 := funext fun a => by fin_cases a <;> rfl

section
variable (c : Dev nD) (i : grid2.Coords) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole)
theorem soutA_eq (hc0 : cond2_0 i) (hc1 : cond2_1 i) (hc2 : ¬cond2_2 i) (x0 : Vec F S1x1024x1024 .bf16) (x1 : Vec F S1x512x1024 .bf16) (x2 : Vec F S1x1x512 .f32) (x3 : Vec F S1x512x1024 .bf16) :
    sout2_A_0 c i arg3 harg3 arg4 harg4 arg5 harg5 arg6 harg6 arg7 harg7 arg8 harg8 hc0 hc1 hc2 x0 x1 x2 x3 = k2_pay2 i x0 x1 x2 (k2_pay1 (F := F)) x3 := by
  unfold sout2_A_0
  rw [View.read_writes_eq_canon _ _ _ (scover2_A_0 c i arg3 harg3 arg4 harg4 arg5 harg5 arg6 harg6 arg7 harg7 arg8 harg8 hc0 hc1 hc2 x0 x1 x2 x3)]
  unfold kernelRun2_A
  dsimp only
  try sl_unfold_words
  rw [View.canon_cons_unit_zero (S := S1024x1024) zero2, View.readCov_unit_zero (S := S1024x1024) _ zero2]
  simp only [View.readAt_eq_ld, harg3.read_unread, harg4.read_unread, harg5.read_unread, harg6.read_unread, harg8.read_unread, View.ld_unit_zero (S := S1x1024x1024) zero3, View.ld_unit_zero (S := S1x512x1024) zero3, View.ld_unit_zero (S := S1x1x512) zero3, View.ld_unit_zero (S := S1024x1024) zero2]

theorem soutB_eq (hc0 : ¬cond2_0 i) (hc1 : cond2_1 i) (hc2 : ¬cond2_2 i) (x0 : Vec F S1x1024x1024 .bf16) (x1 : Vec F S1x512x1024 .bf16) (x2 : Vec F S1x1x512 .f32) (x3 : Vec F S1x512x1024 .bf16) (xs0 : Vec F S1024x1024 .f32) :
    sout2_B_0 c i arg3 harg3 arg4 harg4 arg5 harg5 arg6 harg6 arg7 harg7 arg8 harg8 hc0 hc1 hc2 x0 x1 x2 x3 xs0 = k2_pay2 i x0 x1 x2 xs0 x3 := by
  unfold sout2_B_0
  rw [View.read_writes_eq_canon _ _ _ (scover2_B_0 c i arg3 harg3 arg4 harg4 arg5 harg5 arg6 harg6 arg7 harg7 arg8 harg8 hc0 hc1 hc2 x0 x1 x2 x3 xs0)]
  unfold kernelRun2_B
  dsimp only
  try sl_unfold_words
  rw [View.canon_unit_zero zero2]
  simp only [View.readAt_eq_ld, harg3.read_unread, harg4.read_unread, harg5.read_unread, harg6.read_unread, harg8.read_unread, View.ld_unit_zero (S := S1x1024x1024) zero3, View.ld_unit_zero (S := S1x512x1024) zero3, View.ld_unit_zero (S := S1x1x512) zero3, View.ld_unit_zero (S := S1024x1024) zero2]

theorem soutE_eq (hc0 : ¬cond2_0 i) (hc1 : cond2_1 i) (hc2 : cond2_2 i) (x0 : Vec F S1x1024x1024 .bf16) (x1 : Vec F S1x512x1024 .bf16) (x2 : Vec F S1x1x512 .f32) (x3 : Vec F S1x512x1024 .bf16) (xs0 : Vec F S1024x1024 .f32) :
    sout2_E_0 c i arg3 harg3 arg4 harg4 arg5 harg5 arg6 harg6 arg7 harg7 arg8 harg8 hc0 hc1 hc2 x0 x1 x2 x3 xs0 = k2_pay2 i x0 x1 x2 xs0 x3 := by
  unfold sout2_E_0
  rw [View.read_writes_eq_canon _ _ _ (scover2_E_0 c i arg3 harg3 arg4 harg4 arg5 harg5 arg6 harg6 arg7 harg7 arg8 harg8 hc0 hc1 hc2 x0 x1 x2 x3 xs0)]
  unfold kernelRun2_E
  dsimp only
  try sl_unfold_words
  rw [View.canon_unit_zero zero2]
  simp only [View.readAt_eq_ld, harg3.read_unread, harg4.read_unread, harg5.read_unread, harg6.read_unread, harg8.read_unread, View.ld_unit_zero (S := S1x1024x1024) zero3, View.ld_unit_zero (S := S1x512x1024) zero3, View.ld_unit_zero (S := S1x1x512) zero3, View.ld_unit_zero (S := S1024x1024) zero2]

theorem outE_eq (hc0 : ¬cond2_0 i) (hc1 : cond2_1 i) (hc2 : cond2_2 i) (x0 : Vec F S1x1024x1024 .bf16) (x1 : Vec F S1x512x1024 .bf16) (x2 : Vec F S1x1x512 .f32) (x3 : Vec F S1x512x1024 .bf16) (xs0 : Vec F S1024x1024 .f32) :
    out2_E_4 c i arg3 harg3 arg4 harg4 arg5 harg5 arg6 harg6 arg7 harg7 arg8 harg8 hc0 hc1 hc2 x0 x1 x2 x3 xs0 = k2_pay3 (k2_pay2 i x0 x1 x2 xs0 x3) := by
  unfold out2_E_4
  rw [View.read_writes_eq_canon _ _ _ (cover2_E_4 c i arg3 harg3 arg4 harg4 arg5 harg5 arg6 harg6 arg7 harg7 arg8 harg8 hc0 hc1 hc2 x0 x1 x2 x3 xs0)]
  unfold kernelRun2_E
  dsimp only
  try sl_unfold_words
  rw [View.canon_unit_zero zero3, View.readCov_unit_zero (S := S1024x1024) _ zero2]
  simp only [View.readAt_eq_ld, harg3.read_unread, harg4.read_unread, harg5.read_unread, harg6.read_unread, harg8.read_unread, View.ld_unit_zero (S := S1x1024x1024) zero3, View.ld_unit_zero (S := S1x512x1024) zero3, View.ld_unit_zero (S := S1x1x512) zero3, View.ld_unit_zero (S := S1024x1024) zero2]

theorem outD_eq (hc0 : ¬cond2_0 i) (hc1 : ¬cond2_1 i) (hc2 : cond2_2 i) (x0 : Vec F S1x1024x1024 .bf16) (x1 : Vec F S1x512x1024 .bf16) (x2 : Vec F S1x1x512 .f32) (x3 : Vec F S1x512x1024 .bf16) (xs0 : Vec F S1024x1024 .f32) :
    out2_D_4 c i arg3 harg3 arg4 harg4 arg5 harg5 arg6 harg6 arg7 harg7 arg8 harg8 hc0 hc1 hc2 x0 x1 x2 x3 xs0 = k2_pay3 xs0 := by
  unfold out2_D_4
  rw [View.read_writes_eq_canon _ _ _ (cover2_D_4 c i arg3 harg3 arg4 harg4 arg5 harg5 arg6 harg6 arg7 harg7 arg8 harg8 hc0 hc1 hc2 x0 x1 x2 x3 xs0)]
  unfold kernelRun2_D
  dsimp only
  try sl_unfold_words
  rw [View.canon_unit_zero zero3]
  simp only [View.readAt_eq_ld, harg3.read_unread, harg4.read_unread, harg5.read_unread, harg6.read_unread, harg8.read_unread, View.ld_unit_zero (S := S1x1024x1024) zero3, View.ld_unit_zero (S := S1x512x1024) zero3, View.ld_unit_zero (S := S1x1x512) zero3, View.ld_unit_zero (S := S1024x1024) zero2]
end

end Cert.KernelIdeal.Val

end
-- ==== Proof.Val.V2Blk.lean ====
import proofs.«138723_j18210661335624_2_alg».proof.Proof.KI.R2Runs
import proofs.«138723_j18210661335624_2_alg».proof.Proof.Spec
import Idealize.ShloMosaic.Lib.Pipeline.Value
import Idealize.ShloMosaic.Lib.ValueIdx

noncomputable section

namespace Cert.KernelIdeal.Val

open Cert.KernelIdeal Cert.KernelIdeal.Gen Cert.KernelIdeal.Fr Idealize.ShloMosaic Idealize.ShloMosaic.TcCoe
  Idealize.ShloMosaic.ValueIdx Idealize.SL.Sem

variable (V : (c : Dev nD) → (b : Ref sig .tc) → Buf (Elt Ideal) ((c : Thread nD τ).loc b))

theorem N2_eq : cfg2.N = 64 := N_2

def bOf (t : Fin cfg2.N) : Fin 8 := ⟨t.val / 8, by have h : t.val < 64 := lt_of_lt_of_eq t.isLt N2_eq; omega⟩
def tOf (t : Fin cfg2.N) : Fin 2 := ⟨(t.val / 4) % 2, by omega⟩
def sOf (t : Fin cfg2.N) : Fin 4 := ⟨t.val % 4, by omega⟩

theorem coords2 : ∀ t : Fin cfg2.N, ((grid2.coords t) 0).val = t.val / 8 ∧ ((grid2.coords t) 1).val = (t.val / 4) % 2
    ∧ ((grid2.coords t) 2).val = t.val % 4 :=
  (by decide +kernel : ∀ t : Fin grid2.N, ((grid2.coords t) 0).val = t.val / 8 ∧ ((grid2.coords t) 1).val = (t.val / 4) % 2
    ∧ ((grid2.coords t) 2).val = t.val % 4)

theorem index2_0 : ∀ t : Fin cfg2.N, win2_0.index t 0 = t.val / 8 ∧ win2_0.index t 1 = (t.val / 4) % 2 ∧ win2_0.index t 2 = 0 :=
  (by decide +kernel : ∀ t : Fin grid2.N, win2_0.index t 0 = t.val / 8 ∧ win2_0.index t 1 = (t.val / 4) % 2 ∧ win2_0.index t 2 = 0)
theorem index2_1 : ∀ t : Fin cfg2.N, win2_1.index t 0 = t.val / 8 ∧ win2_1.index t 1 = t.val % 4 ∧ win2_1.index t 2 = 0 :=
  (by decide +kernel : ∀ t : Fin grid2.N, win2_1.index t 0 = t.val / 8 ∧ win2_1.index t 1 = t.val % 4 ∧ win2_1.index t 2 = 0)
theorem index2_2 : ∀ t : Fin cfg2.N, win2_2.index t 0 = t.val / 8 ∧ win2_2.index t 1 = 0 ∧ win2_2.index t 2 = t.val % 4 :=
  (by decide +kernel : ∀ t : Fin grid2.N, win2_2.index t 0 = t.val / 8 ∧ win2_2.index t 1 = 0 ∧ win2_2.index t 2 = t.val % 4)
theorem index2_3 : ∀ t : Fin cfg2.N, win2_3.index t 0 = t.val / 8 ∧ win2_3.index t 1 = t.val % 4 ∧ win2_3.index t 2 = 0 :=
  (by decide +kernel : ∀ t : Fin grid2.N, win2_3.index t 0 = t.val / 8 ∧ win2_3.index t 1 = t.val % 4 ∧ win2_3.index t 2 = 0)
theorem index2_4 : ∀ t : Fin cfg2.N, win2_4.index t 0 = t.val / 8 ∧ win2_4.index t 1 = (t.val / 4) % 2 ∧ win2_4.index t 2 = 0 :=
  (by decide +kernel : ∀ t : Fin grid2.N, win2_4.index t 0 = t.val / 8 ∧ win2_4.index t 1 = (t.val / 4) % 2 ∧ win2_4.index t 2 = 0)

abbrev xt (c : Dev nD) (t : Fin cfg2.N) : Vec Ideal S1x1024x1024 .bf16 := iblk2 V c 0 t
abbrev xs (c : Dev nD) (t : Fin cfg2.N) : Vec Ideal S1x512x1024 .bf16 := iblk2 V c 1 t
abbrev ls (c : Dev nD) (t : Fin cfg2.N) : Vec Ideal S1x1x512 .f32 := iblk2 V c 2 t
abbrev xv (c : Dev nD) (t : Fin cfg2.N) : Vec Ideal S1x512x1024 .bf16 := iblk2 V c 3 t

abbrev pA (c : Dev nD) : Fin 8 → Fin 2048 → Fin 1024 → EReal := fun b t e => (V c main_v1_0 : S8x2048x1024.Idx → EReal) (ix3 b t e)
abbrev lA (c : Dev nD) : Fin 8 → Fin 2048 → EReal := fun b s => (V c main_v2 : S8x1x2048.Idx → EReal) (ix3 b (0 : Fin 1) s)
abbrev xA (c : Dev nD) : Fin 8 → Fin 2048 → Fin 1024 → EReal := fun b s d => (V c main_v1_1 : S8x2048x1024.Idx → EReal) (ix3 b s d)

theorem xt_apply (c : Dev nD) (t : Fin cfg2.N) (r : Fin 1024) (e : Fin 1024) :
    xt V c t (ix3 (0 : Fin 1) r e) = pA V c (bOf t) (Spec.row (tOf t) r) e := by
  obtain ⟨h0, h1, h2⟩ := index2_0 t
  unfold xt iblk2
  rw [View.read_apply]
  show V c main_v1_0 _ = V c main_v1_0 _
  congr 1
  funext a
  apply Fin.ext
  match a with
  | ⟨0, _⟩ => show win2_0.index t 0 * 1 + 1 * (0 : Fin 1).val = t.val / 8; rw [h0]; simp
  | ⟨1, _⟩ => show win2_0.index t 1 * 1024 + 1 * r.val = (t.val / 4) % 2 * 1024 + r.val; rw [h1]; omega
  | ⟨2, _⟩ => show win2_0.index t 2 * 1024 + 1 * e.val = e.val; rw [h2]; omega

theorem xs_apply (c : Dev nD) (t : Fin cfg2.N) (j : Fin 512) (e : Fin 1024) :
    xs V c t (ix3 (0 : Fin 1) j e) = pA V c (bOf t) (Spec.col (sOf t) j) e := by
  obtain ⟨h0, h1, h2⟩ := index2_1 t
  unfold xs iblk2
  rw [View.read_apply]
  show V c main_v1_0 _ = V c main_v1_0 _
  congr 1
  funext a
  apply Fin.ext
  match a with
  | ⟨0, _⟩ => show win2_1.index t 0 * 1 + 1 * (0 : Fin 1).val = t.val / 8; rw [h0]; simp
  | ⟨1, _⟩ => show win2_1.index t 1 * 512 + 1 * j.val = t.val % 4 * 512 + j.val; rw [h1]; omega
  | ⟨2, _⟩ => show win2_1.index t 2 * 1024 + 1 * e.val = e.val; rw [h2]; omega

theorem ls_apply (c : Dev nD) (t : Fin cfg2.N) (j : Fin 512) :
    ls V c t (ix3 (0 : Fin 1) (0 : Fin 1) j) = lA V c (bOf t) (Spec.col (sOf t) j) := by
  obtain ⟨h0, h1, h2⟩ := index2_2 t
  unfold ls iblk2
  rw [View.read_apply]
  show V c main_v2 _ = V c main_v2 _
  congr 1
  funext a
  apply Fin.ext
  match a with
  | ⟨0, _⟩ => show win2_2.index t 0 * 1 + 1 * (0 : Fin 1).val = t.val / 8; rw [h0]; simp
  | ⟨1, _⟩ => show win2_2.index t 1 * 1 + 1 * (0 : Fin 1).val = 0; rw [h1]; simp
  | ⟨2, _⟩ => show win2_2.index t 2 * 512 + 1 * j.val = t.val % 4 * 512 + j.val; rw [h2]; omega

theorem xv_apply (c : Dev nD) (t : Fin cfg2.N) (j : Fin 512) (d : Fin 1024) :
    xv V c t (ix3 (0 : Fin 1) j d) = xA V c (bOf t) (Spec.col (sOf t) j) d := by
  obtain ⟨h0, h1, h2⟩ := index2_3 t
  unfold xv iblk2
  rw [View.read_apply]
  show V c main_v1_1 _ = V c main_v1_1 _
  congr 1
  funext a
  apply Fin.ext
  match a with
  | ⟨0, _⟩ => show win2_3.index t 0 * 1 + 1 * (0 : Fin 1).val = t.val / 8; rw [h0]; simp
  | ⟨1, _⟩ => show win2_3.index t 1 * 512 + 1 * j.val = t.val % 4 * 512 + j.val; rw [h1]; omega
  | ⟨2, _⟩ => show win2_3.index t 2 * 1024 + 1 * d.val = d.val; rw [h2]; omega

end Cert.KernelIdeal.Val

end
-- ==== Proof.Val.V2Math.lean ====
import proofs.«138723_j18210661335624_2_alg».proof.Proof.Spec

noncomputable section

namespace Cert.V2Math

open Idealize.ShloMosaic Cert.Spec

variable (c neg : EReal) (p : Fin 8 → Fin 2048 → Fin 1024 → EReal) (L : Fin 8 → Fin 2048 → EReal)
  (xr : Fin 8 → Fin 2048 → Fin 1024 → EReal)

def blkTerm (b : Fin 8) (T : Fin 2) (S : Fin 4) (r : Fin 1024) (d : Fin 1024) : EReal :=
  ∑ j : Fin 512, Ideal.exp (ksc c neg p b (row T r) (col S j) - L b (col S j)) * xr b (col S j) d

def visTerm (b : Fin 8) (T : Fin 2) (S : Fin 4) (r : Fin 1024) (d : Fin 1024) : EReal :=
  if S.val * 512 < (T.val + 1) * 1024 then blkTerm c neg p L xr b T S r d else 0

def accUpTo (b : Fin 8) (T : Fin 2) (n : Nat) (r : Fin 1024) (d : Fin 1024) : EReal :=
  ∑ S : Fin 4, if S.val ≤ n then visTerm c neg p L xr b T S r d else 0

theorem row_val (T : Fin 2) (r : Fin 1024) : (row T r).val = T.val * 1024 + r.val := rfl

theorem row_div (T : Fin 2) (r : Fin 1024) : (row T r).val / 1024 = T.val := by
  rw [row_val]; have := r.isLt; omega

theorem accUpTo_zero (b : Fin 8) (T : Fin 2) (r d : Fin 1024) :
    accUpTo c neg p L xr b T 0 r d = visTerm c neg p L xr b T 0 r d := by
  unfold accUpTo
  rw [Fin.sum_univ_four]
  simp

theorem accUpTo_succ (b : Fin 8) (T : Fin 2) (n : Nat) (h : n + 1 < 4) (r d : Fin 1024) :
    accUpTo c neg p L xr b T (n + 1) r d = accUpTo c neg p L xr b T n r d + visTerm c neg p L xr b T ⟨n + 1, h⟩ r d := by
  unfold accUpTo
  rw [Fin.sum_univ_four, Fin.sum_univ_four]
  have hn : n = 0 ∨ n = 1 ∨ n = 2 := by omega
  rcases hn with rfl | rfl | rfl <;> simp [add_assoc] <;> rfl

theorem accUpTo_step (b : Fin 8) (T : Fin 2) (n : Nat) (S : Fin 4) (hS : S.val = n + 1) (r d : Fin 1024) :
    accUpTo c neg p L xr b T S.val r d = accUpTo c neg p L xr b T n r d + visTerm c neg p L xr b T S r d := by
  have h : n + 1 < 4 := hS ▸ S.isLt
  obtain rfl : S = ⟨n + 1, h⟩ := Fin.ext hS
  exact accUpTo_succ c neg p L xr b T n h r d

theorem accUpTo_last (b : Fin 8) (T : Fin 2) (r d : Fin 1024) :
    accUpTo c neg p L xr b T 3 r d = outK c neg p L xr b (row T r) d := by
  unfold accUpTo outK
  refine Finset.sum_congr rfl fun S _ => ?_
  rw [if_pos (by have := S.isLt; omega), row_div]
  rfl

end Cert.V2Math

end
-- ==== Proof.Val.V2Pay.lean ====
import proofs.«138723_j18210661335624_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

noncomputable section

namespace Cert.KernelIdeal.Val

open Cert.KernelIdeal Cert.KernelIdeal.Gen Idealize.ShloMosaic Idealize.ShloMosaic.ValueIdx

theorem lhs_sc_0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhs_sc_1 (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
theorem rhs_sc_0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhs_sc_1 (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

theorem score_apply (a : FVec Ideal S1024x1024 .bf16) (b : FVec Ideal S512x1024 .bf16) (r : Fin 1024) (j : Fin 512) :
    matmul dot_S1024x1024_S512x1024_S1024x512_1_1_0_0_n_n none a b (constant (F := Ideal) S1024x512 .f32 0x00000000#32) (ix2 r j)
      = ∑ e : Fin 1024, a (ix2 r e) * b (ix2 j e) := by
  refine (Ideal.matmul_constant_zero_apply dot_S1024x1024_S512x1024_S1024x512_1_1_0_0_n_n none a b (ix2 r j)).trans ?_
  rw [← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 r j) ((contrEquiv1 dot_S1024x1024_S512x1024_S1024x512_1_1_0_0_n_n 1024 rfl rfl).symm k) = ix2 r k := funext fun x => Fin.ext (by
    match x with
    | ⟨0, _⟩ => exact lhs_sc_0 _ _
    | ⟨1, _⟩ => exact (lhs_sc_1 _ _).trans hk)
  have er : dot_S1024x1024_S512x1024_S1024x512_1_1_0_0_n_n.rhsIdx (ix2 r j) ((contrEquiv1 dot_S1024x1024_S512x1024_S1024x512_1_1_0_0_n_n 1024 rfl rfl).symm k) = ix2 j k := funext fun x => Fin.ext (by
    match x with
    | ⟨0, _⟩ => exact rhs_sc_0 _ _
    | ⟨1, _⟩ => exact (rhs_sc_1 _ _).trans hk)
  rw [el, er]

theorem lhs_pv_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_pv_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_pv_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_pv_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

theorem pv_apply (p : FVec Ideal S1024x512 .bf16) (x : FVec Ideal S512x1024 .bf16) (r : Fin 1024) (d : Fin 1024) :
    matmul dot_S1024x512_S512x1024_S1024x1024_1_0_0_1_n_n none p x (constant (F := Ideal) S1024x1024 .f32 0x00000000#32) (ix2 r d)
      = ∑ j : Fin 512, p (ix2 r j) * x (ix2 j d) := by
  refine (Ideal.matmul_constant_zero_apply dot_S1024x512_S512x1024_S1024x1024_1_0_0_1_n_n none p x (ix2 r d)).trans ?_
  rw [← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 r d) ((contrEquiv1 dot_S1024x512_S512x1024_S1024x1024_1_0_0_1_n_n 512 rfl rfl).symm k) = ix2 r k := funext fun x => Fin.ext (by
    match x with
    | ⟨0, _⟩ => exact lhs_pv_0 _ _
    | ⟨1, _⟩ => exact (lhs_pv_1 _ _).trans hk)
  have er : dot_S1024x512_S512x1024_S1024x1024_1_0_0_1_n_n.rhsIdx (ix2 r d) ((contrEquiv1 dot_S1024x512_S512x1024_S1024x1024_1_0_0_1_n_n 512 rfl rfl).symm k) = ix2 k d := funext fun x => Fin.ext (by
    match x with
    | ⟨0, _⟩ => exact (rhs_pv_0 _ _).trans hk
    | ⟨1, _⟩ => exact rhs_pv_1 _ _)
  rw [el, er]

theorem mask_iff (ti si r j : ℕ) (hti : ti < 2) (hsi : si < 4) (hr : r < 1024) (hj : j < 512) :
    IntOp.cmpi .sle (IntOp.addi (Scalar.muli (BitVec.ofNat 32 si) 512#32) (BitVec.ofNat 32 j))
        (IntOp.addi (Scalar.muli (BitVec.ofNat 32 ti) 1024#32) (BitVec.ofNat 32 r)) = 1#1
      ↔ si * 512 + j ≤ ti * 1024 + r := by
  have ha : (IntOp.addi (Scalar.muli (BitVec.ofNat 32 si) 512#32) (BitVec.ofNat 32 j)).toNat = si * 512 + j := by
    simp only [IntOp.addi, Scalar.muli, IntOp.muli, BitVec.toNat_add, BitVec.toNat_mul, BitVec.toNat_ofNat]
    omega
  have hb : (IntOp.addi (Scalar.muli (BitVec.ofNat 32 ti) 1024#32) (BitVec.ofNat 32 r)).toNat = ti * 1024 + r := by
    simp only [IntOp.addi, Scalar.muli, IntOp.muli, BitVec.toNat_add, BitVec.toNat_mul, BitVec.toNat_ofNat]
    omega
  rw [StableHlo.Predicate.sle_iff_toNat (by omega) (by omega), ha, hb]

theorem mask_iff_of (ti si r j : ℕ) (hti : ti < 2) (hsi : si < 4) (hr : r < 1024) (hj : j < 512) (x y : BitVec 32)
    (hx : x = BitVec.ofNat 32 j) (hy : y = BitVec.ofNat 32 r) :
    IntOp.cmpi .sle (IntOp.addi (Scalar.muli (BitVec.ofNat 32 si) 512#32) x)
        (IntOp.addi (Scalar.muli (BitVec.ofNat 32 ti) 1024#32) y) = 1#1
      ↔ si * 512 + j ≤ ti * 1024 + r := by
  subst hx hy
  exact mask_iff ti si r j hti hsi hr hj

theorem neg_big_eq : Named.named (F := Ideal) κ "neg_big" (φ := .f32) 0xFF333332#32 = (⊥ : EReal) :=
  IdealRules.named_const.ideal_named_scalar _ _ _ _ rfl

theorem weight_at (a : FVec Ideal S1024x512 .f32) (h : FTy.bf16.bits < FTy.f32.bits) (y : S1024x512.Idx) :
    (truncf .bf16 (exp a) h : FVec Ideal S1024x512 .bf16) y = Ideal.exp (a y) := rfl

theorem k2_pay1_apply (r : Fin 1024) (d : Fin 1024) : k2_pay1 (F := Ideal) (ix2 r d) = 0 := by
  unfold k2_pay1
  refine (congrFun (shapeCast_self _ _) (ix2 r d)).trans ?_
  exact Ideal.ofBits_zero_f32

theorem k2_pay3_apply (v : FVec Ideal S1024x1024 .f32) (u : Fin 1) (r : Fin 1024) (d : Fin 1024) :
    k2_pay3 (F := Ideal) v (ix3 u r d) = v (ix2 r d) := by
  unfold k2_pay3
  exact shapeCast_ab_1ab_apply v _ u r d

theorem k2_pay2_apply (i : grid2.Coords) (v12 : FVec Ideal S1x1024x1024 .bf16) (v14 : FVec Ideal S1x512x1024 .bf16)
    (v30 : FVec Ideal S1x1x512 .f32) (v35 : FVec Ideal S1024x1024 .f32) (v37 : FVec Ideal S1x512x1024 .bf16)
    (r : Fin 1024) (d : Fin 1024) :
    k2_pay2 (F := Ideal) i v12 v14 v30 v35 v37 (ix2 r d)
      = v35 (ix2 r d) + ∑ j : Fin 512,
          Ideal.exp ((if (i 2).val * 512 + j.val ≤ (i 1).val * 1024 + r.val
                then (∑ e : Fin 1024, v12 (ix3 (0 : Fin 1) r e) * v14 (ix3 (0 : Fin 1) j e)) * Ideal.ofBits .f32 0x3D000000#32
                else ⊥) - v30 (ix3 (0 : Fin 1) (0 : Fin 1) j)) * v37 (ix3 (0 : Fin 1) j d) := by
  unfold k2_pay2
  refine (congrFun (shapeCast_self _ _) (ix2 r d)).trans ?_
  refine (addf_apply v35 _ (ix2 r d)).trans ?_
  refine congrArg (v35 (ix2 r d) + ·) ?_
  refine (pv_apply _ _ r d).trans ?_
  refine Finset.sum_congr rfl fun j _ => ?_
  refine congrArg₂ (· * ·) ?_ (shapeCast_1ab_ab_apply v37 _ j d)
  refine (weight_at _ _ (ix2 r j)).trans ?_
  refine congrArg Ideal.exp ?_
  refine (subf_apply _ _ (ix2 r j)).trans ?_
  refine congrArg₂ (· - ·) ?_ ((broadcastTo_1b_ab_apply _ _ r j).trans (shapeCast_1ab_ab_apply v30 _ (0 : Fin 1) j))
  refine (select_apply _ _ _ (ix2 r j)).trans ?_
  unfold Scalar.select
  refine if_congr ?_ ?_ neg_big_eq
  · exact mask_iff_of (i 1).val (i 2).val r.val j.val (i 1).isLt (i 2).isLt r.isLt j.isLt _ _
      (iota_single_apply .tc S1024x512 32 1 iota_S1024x512_d1_w32 (ix2 r j))
      (iota_single_apply .tc S1024x512 32 0 iota_S1024x512_d0_w32 (ix2 r j))
  · refine (mulf_apply _ _ (ix2 r j)).trans ?_
    refine congrArg₂ (· * ·) ?_ rfl
    refine (score_apply _ _ r j).trans ?_
    exact Finset.sum_congr rfl fun e _ =>
      congrArg₂ (· * ·) (shapeCast_1ab_ab_apply v12 _ r e) (shapeCast_1ab_ab_apply v14 _ j e)

end Cert.KernelIdeal.Val

end
-- ==== Proof.Val.V2.lean ====
import proofs.«138723_j18210661335624_2_alg».proof.Proof.KI.R2
import proofs.«138723_j18210661335624_2_alg».proof.Proof.Val.V2Pieces
import proofs.«138723_j18210661335624_2_alg».proof.Proof.Val.V2Blk
import proofs.«138723_j18210661335624_2_alg».proof.Proof.Val.V2Math
import proofs.«138723_j18210661335624_2_alg».proof.Proof.Val.V2Pay
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open Cert.V2Math

variable (V : (c : Dev nD) → (b : Ref sig .tc) → Buf (Elt Ideal) ((c : Thread nD τ).loc b))

abbrev c32 : EReal := Ideal.ofBits .f32 0x3D000000#32

theorem upd_apply (c : Dev nD) (t : Fin cfg2.N) (acc : Vec Ideal S1024x1024 .f32) (r d : Fin 1024) :
    k2_pay2 (F := Ideal) (grid2.coords t) (xt V c t) (xs V c t) (ls V c t) acc (xv V c t) (ix2 r d)
      = acc (ix2 r d) + blkTerm c32 ⊥ (pA V c) (lA V c) (xA V c) (bOf t) (tOf t) (sOf t) r d := by
  refine (k2_pay2_apply (grid2.coords t) (xt V c t) (xs V c t) (ls V c t) acc (xv V c t) r d).trans ?_
  refine congrArg (acc (ix2 r d) + ·) ?_
  unfold blkTerm
  refine Finset.sum_congr rfl fun j _ => ?_
  obtain ⟨-, g1, g2⟩ := coords2 t
  rw [xv_apply, ls_apply]
  refine congrArg₂ (· * ·) (congrArg Ideal.exp (congrArg₂ (· - ·) ?_ rfl)) rfl
  unfold Spec.ksc Spec.corr
  have hle : (((grid2.coords t) 2).val * 512 + j.val ≤ ((grid2.coords t) 1).val * 1024 + r.val)
      ↔ Spec.col (sOf t) j ≤ Spec.row (tOf t) r := by
    rw [Fin.le_def, g1, g2]; exact Iff.rfl
  refine if_congr hle ?_ rfl
  refine congrArg (· * c32) (Finset.sum_congr rfl fun e _ => ?_)
  rw [xt_apply, xs_apply]

theorem acc_eq (c : Dev nD) : ∀ (k : ℕ) (t : Fin cfg2.N), t.val = k → ∀ (r d : Fin 1024),
    (outsAt2 V c t.val t.isLt).2 (ix2 r d) = accUpTo c32 ⊥ (pA V c) (lA V c) (xA V c) (bOf t) (tOf t) (t.val % 4) r d := by
  intro k
  induction k using Nat.strong_induction_on with
  | _ k ih =>
  intro t hk r d
  have hN : t.val < 64 := lt_of_lt_of_eq t.isLt N2_eq
  by_cases h0 : t.val % 4 = 0
  · have h1 : (t.val % 4 < 2 ∨ (t.val / 4) % 2 = 1) := Or.inl (by omega)
    have h2 : ¬t.val % 4 = 3 := by omega
    rw [outsAt2_A V c t h0 h1 h2]
    dsimp only
    refine (congrFun (soutA_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) ((hcond2_1 t).mpr h1) (fun h => h2 ((hcond2_2 t).mp h)) (xt V c t) (xs V c t) (ls V c t) (xv V c t)) (ix2 r d)).trans ?_
    rw [upd_apply, k2_pay1_apply, zero_add, h0, accUpTo_zero]
    have hs : sOf t = 0 := Fin.ext h0
    unfold visTerm
    rw [hs, if_pos (show (0 : Fin 4).val * 512 < ((tOf t).val + 1) * 1024 by show 0 * 512 < ((tOf t).val + 1) * 1024; omega)]
  · have hlt : t.val - 1 < cfg2.N := Nat.lt_of_le_of_lt (Nat.sub_le _ _) t.isLt
    have eb : bOf ⟨t.val - 1, hlt⟩ = bOf t := Fin.ext (by show (t.val - 1) / 8 = t.val / 8; omega)
    have et : tOf ⟨t.val - 1, hlt⟩ = tOf t := Fin.ext (by show ((t.val - 1) / 4) % 2 = (t.val / 4) % 2; omega)
    have ih' : (outsAt2 V c (t.val - 1) hlt).2 (ix2 r d) = accUpTo c32 ⊥ (pA V c) (lA V c) (xA V c) (bOf t) (tOf t) ((t.val - 1) % 4) r d := by
      have h := ih (t.val - 1) (by omega) ⟨t.val - 1, hlt⟩ rfl r d
      rw [eb, et] at h
      exact h
    have hstep : accUpTo c32 ⊥ (pA V c) (lA V c) (xA V c) (bOf t) (tOf t) (t.val % 4) r d
        = accUpTo c32 ⊥ (pA V c) (lA V c) (xA V c) (bOf t) (tOf t) ((t.val - 1) % 4) r d + visTerm c32 ⊥ (pA V c) (lA V c) (xA V c) (bOf t) (tOf t) (sOf t) r d :=
      accUpTo_step c32 ⊥ (pA V c) (lA V c) (xA V c) (bOf t) (tOf t) ((t.val - 1) % 4) (sOf t) (by show t.val % 4 = (t.val - 1) % 4 + 1; omega) r d
    by_cases h1 : (t.val % 4 < 2 ∨ (t.val / 4) % 2 = 1)
    · have hv : visTerm c32 ⊥ (pA V c) (lA V c) (xA V c) (bOf t) (tOf t) (sOf t) r d = blkTerm c32 ⊥ (pA V c) (lA V c) (xA V c) (bOf t) (tOf t) (sOf t) r d :=
        if_pos (by show t.val % 4 * 512 < ((t.val / 4) % 2 + 1) * 1024; omega)
      by_cases h2 : t.val % 4 = 3
      · rw [outsAt2_E V c t h0 h1 h2]
        dsimp only
        refine (congrFun (soutE_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) ((hcond2_2 t).mpr h2) (xt V c t) (xs V c t) (ls V c t) (xv V c t) (outsAt2 V c (t.val - 1) hlt).2) (ix2 r d)).trans ?_
        rw [upd_apply, ih', hstep, hv]
      · rw [outsAt2_B V c t h0 h1 h2]
        dsimp only
        refine (congrFun (soutB_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (fun h => h2 ((hcond2_2 t).mp h)) (xt V c t) (xs V c t) (ls V c t) (xv V c t) (outsAt2 V c (t.val - 1) hlt).2) (ix2 r d)).trans ?_
        rw [upd_apply, ih', hstep, hv]
    · have hv : visTerm c32 ⊥ (pA V c) (lA V c) (xA V c) (bOf t) (tOf t) (sOf t) r d = 0 :=
        if_neg (by show ¬t.val % 4 * 512 < ((t.val / 4) % 2 + 1) * 1024; omega)
      by_cases h2 : t.val % 4 = 3
      · rw [outsAt2_D V c t h0 h1 h2]
        dsimp only
        rw [hstep, hv, add_zero]
        exact ih'
      · rw [outsAt2_C V c t h0 h1 h2]
        dsimp only
        rw [hstep, hv, add_zero]
        exact ih'

theorem out_apply (c : Dev nD) (t : Fin cfg2.N) (h3 : t.val % 4 = 3) (u : Fin 1) (r d : Fin 1024) :
    (outsAt2 V c t.val t.isLt).1 (ix3 u r d) = Spec.outK c32 ⊥ (pA V c) (lA V c) (xA V c) (bOf t) (Spec.row (tOf t) r) d := by
  have hacc := acc_eq V c t.val t rfl r d
  rw [h3, accUpTo_last] at hacc
  rw [← hacc]
  have h0 : ¬t.val % 4 = 0 := by omega
  have hlt : t.val - 1 < cfg2.N := Nat.lt_of_le_of_lt (Nat.sub_le _ _) t.isLt
  by_cases h1 : (t.val % 4 < 2 ∨ (t.val / 4) % 2 = 1)
  · rw [outsAt2_E V c t h0 h1 h3]
    dsimp only
    refine (congrFun (outE_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) ((hcond2_2 t).mpr h3) (xt V c t) (xs V c t) (ls V c t) (xv V c t) (outsAt2 V c (t.val - 1) hlt).2) (ix3 u r d)).trans ?_
    refine (k2_pay3_apply _ u r d).trans ?_
    exact (congrFun (soutE_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) ((hcond2_2 t).mpr h3) (xt V c t) (xs V c t) (ls V c t) (xv V c t) (outsAt2 V c (t.val - 1) hlt).2) (ix2 r d)).symm
  · rw [outsAt2_D V c t h0 h1 h3]
    dsimp only
    refine (congrFun (outD_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) ((hcond2_2 t).mpr h3) (xt V c t) (xs V c t) (ls V c t) (xv V c t) (outsAt2 V c (t.val - 1) hlt).2) (ix3 u r d)).trans ?_
    exact k2_pay3_apply _ u r d

abbrev G (c : Dev nD) : S8x2048x1024.Idx → EReal := fun i => Spec.outK c32 ⊥ (pA V c) (lA V c) (xA V c) (i 0) (i 1) (i 2)

theorem flushed_eq (c : Dev nD) (t : Fin cfg2.N) (hf : (cfg2.win 4).flush t = true) :
    (dat2 V c).flushed 4 t = ((cfg2.win 4).blk t).view.read (Elt Ideal) (G V c) := by
  have h3 : t.val % 4 = 3 := (flush2_4 t).mp hf
  obtain ⟨e0, e1, e2⟩ := index2_4 t
  show (cfg2.win 4).cut (grid2.coords t) ((dat2 V c).after 4 t) = _
  rw [after2_4]
  funext j
  show (outsAt2 V c t.val t.isLt).1 j = G V c (((cfg2.win 4).blk t).view.emb j)
  have hj : j = ix3 (j 0) (j 1) (j 2) := eq_ix3 j
  refine (congrArg (outsAt2 V c t.val t.isLt).1 hj).trans ?_
  refine (out_apply V c t h3 (j 0) (j 1) (j 2)).trans ?_
  have hj0 : (j 0).val < 1 := (j 0).isLt
  have hj1 : (j 1).val < 1024 := (j 1).isLt
  have hj2 : (j 2).val < 1024 := (j 2).isLt
  have q0 : bOf t = (((cfg2.win 4).blk t).view.emb j) 0 := Fin.ext (by
    show t.val / 8 = win2_4.index t 0 * 1 + 1 * (j 0).val
    omega)
  have q1 : Spec.row (tOf t) (j 1) = (((cfg2.win 4).blk t).view.emb j) 1 := Fin.ext (by
    show (t.val / 4) % 2 * 1024 + (j 1).val = win2_4.index t 1 * 1024 + 1 * (j 1).val
    omega)
  have q2 : j 2 = (((cfg2.win 4).blk t).view.emb j) 2 := Fin.ext (by
    show (j 2).val = win2_4.index t 2 * 1024 + 1 * (j 2).val
    omega)
  exact congr (congr (congrArg (Spec.outK c32 ⊥ (pA V c) (lA V c) (xA V c)) q0) q1) q2

theorem mem_blk (t : Fin cfg2.N) (i : S8x2048x1024.Idx) :
    i ∈ ((cfg2.win 4).blk t).view.set
      ↔ ∀ a : Fin 3, win2_4.index t a * S1x1024x1024.size a ≤ (i a).val ∧ (i a).val < win2_4.index t a * S1x1024x1024.size a + S1x1024x1024.size a := by
  show i ∈ ((View.whole main_v3).slice (win2_4.rect t)).set ↔ _
  rw [View.set_slice_whole, Rect.mem_set_unit]
  exact Iff.rfl

theorem covered (i : S8x2048x1024.Idx) :
    ∃ t : Fin cfg2.N, (cfg2.win 4).flush t = true ∧ i ∈ ((cfg2.win 4).blk t).view.set := by
  have hi0 : (i 0).val < 8 := (i 0).isLt
  have hi1 : (i 1).val < 2048 := (i 1).isLt
  have hi2 : (i 2).val < 1024 := (i 2).isLt
  have hN : cfg2.N = 64 := N2_eq
  obtain ⟨t, htv⟩ : ∃ t : Fin cfg2.N, t.val = (i 0).val * 8 + (i 1).val / 1024 * 4 + 3 :=
    ⟨⟨(i 0).val * 8 + (i 1).val / 1024 * 4 + 3, by rw [hN]; omega⟩, rfl⟩
  obtain ⟨e0, e1, e2⟩ := index2_4 t
  refine ⟨t, (flush2_4 t).mpr (by rw [htv]; omega), ?_⟩
  rw [mem_blk]
  intro a
  match a with
  | ⟨0, _⟩ => show win2_4.index t 0 * 1 ≤ (i 0).val ∧ (i 0).val < win2_4.index t 0 * 1 + 1; omega
  | ⟨1, _⟩ => show win2_4.index t 1 * 1024 ≤ (i 1).val ∧ (i 1).val < win2_4.index t 1 * 1024 + 1024; omega
  | ⟨2, _⟩ => show win2_4.index t 2 * 1024 ≤ (i 2).val ∧ (i 2).val < win2_4.index t 2 * 1024 + 1024; omega

theorem final (c : Dev nD) : (dat2 V c).arrAt 4 cfg2.N = G V c :=
  (dat2 V c).arrAt_eq_of_cover 4 (G V c) (flushed_eq V c) covered

theorem out_value (c : Dev nD) (b : Fin 8) (t : Fin 2048) (d : Fin 1024) :
    (dat2 (F := Ideal) V c).arrAt 4 cfg2.N (ix3 b t d)
      = Spec.outK (Ideal.ofBits .f32 0x3D000000#32) ⊥ (fun b t e => V c main_v1_0 (ix3 b t e)) (fun b s => V c main_v2 (ix3 b 0 s))
          (fun b s d => V c main_v1_1 (ix3 b s d)) b t d :=
  congrFun (final V c) (ix3 b t d)

end Cert.KernelIdeal.Val

end
-- ==== Proof.RefVal.lean ====
import proofs.«138723_j18210661335624_2_alg».proof.Proof.Gen.ReferenceIdeal.Read
import proofs.«138723_j18210661335624_2_alg».proof.Proof.Spec
import Idealize.ShloMosaic.Lib.StableHlo.Predicate

noncomputable section

namespace Cert.ReferenceIdeal.RefVal

open Cert.ReferenceIdeal Cert.ReferenceIdeal.Gen Cert.ReferenceIdeal.Read Idealize.ShloMosaic Idealize.ShloMosaic.TcCoe
  Idealize.ShloMosaic.StableHlo ValueIdx

variable (x0 : (⟨S8x2048x1024, .f32⟩ : BufTy).Contents (Elt Ideal)) (x1 : (⟨S1024x1024, .f32⟩ : BufTy).Contents (Elt Ideal))
  (x2 : (⟨S1024, .f32⟩ : BufTy).Contents (Elt Ideal))

abbrev X : Fin 8 → Fin 2048 → Fin 1024 → EReal := fun b t d => x0 (ix3 b t d)
abbrev W : Fin 1024 → Fin 1024 → EReal := fun d e => x1 (ix2 d e)
abbrev B : Fin 1024 → EReal := fun e => x2 (ix1 e)
abbrev P : Fin 8 → Fin 2048 → Fin 1024 → EReal := Spec.proj (X x0) (W x1) (B x2)
abbrev R : EReal := Ideal.sqrt (Ideal.ofBits .f32 0x44800000#32)

theorem proj_value (b : Fin 8) (t : Fin 2048) (e : Fin 1024) :
    val_main_v3 (F := Ideal) x0 x1 x2 (ix3 b t e) = P x0 x1 x2 b t e := by
  rw [val_main_v3_apply, val_main_v0_apply, val_main_v2_apply, val_main_v1_apply]
  show (∑ k : Fin 1024, x0 (lidx_main_v0 (ix3 b t e) k) * x1 (ridx_main_v0 (ix3 b t e) k)) + x2 (idx_main_v1 (idx_main_v2 (ix3 b t e)))
    = (∑ d : Fin 1024, x0 (ix3 b t d) * x1 (ix2 d e)) + x2 (ix1 e)
  have e0 : ∀ k : Fin 1024, lidx_main_v0 (ix3 b t e) k = ix3 b t k := fun k =>
    funext fun a => by match a with | ⟨0, _⟩ => rfl | ⟨1, _⟩ => rfl | ⟨2, _⟩ => rfl
  have e1 : ∀ k : Fin 1024, ridx_main_v0 (ix3 b t e) k = ix2 k e := fun k =>
    funext fun a => by match a with | ⟨0, _⟩ => rfl | ⟨1, _⟩ => rfl
  have e2 : idx_main_v1 (idx_main_v2 (ix3 b t e)) = ix1 e :=
    funext fun a => by match a with | ⟨0, _⟩ => rfl
  simp only [e0, e1, e2]

theorem mask_value (t s : Fin 2048) :
    val_main_v9 (F := Ideal) (ix2 t s) = if s ≤ t then 0 else ⊥ := by
  rw [val_main_v9_apply, val_main_call0_v4_apply, val_main_call0_v2_apply, val_main_call0_v0_apply, val_main_call0_v1_apply,
    val_main_call0_c_apply, val_main_call0_v3_apply, val_main_call0_v5_apply, val_main_call0_cst_apply, val_main_v8_apply,
    val_main_cst_0_apply]
  show Scalar.select (IntOp.cmpi .sge (IntOp.addi (BitVec.ofNat 32 t.val) 0#32) (BitVec.ofNat 32 s.val))
    (Ideal.ofBits .f32 0x00000000#32) (Ideal.ofBits .f32 0xFF800000#32) = _
  have ht := t.isLt
  have hs := s.isLt
  have h0 : IntOp.addi (BitVec.ofNat 32 t.val) 0#32 = BitVec.ofNat 32 t.val := by
    unfold IntOp.addi; exact BitVec.add_zero _
  have hc : IntOp.cmpi .sge (BitVec.ofNat 32 t.val) (BitVec.ofNat 32 s.val) = 1#1 ↔ s ≤ t := by
    rw [Predicate.sge_iff_toNat (by rw [BitVec.toNat_ofNat]; omega) (by rw [BitVec.toNat_ofNat]; omega)]
    rw [BitVec.toNat_ofNat, BitVec.toNat_ofNat, Nat.mod_eq_of_lt (by omega), Nat.mod_eq_of_lt (by omega)]
    exact Fin.le_def.symm
  have hz : Ideal.ofBits .f32 0x00000000#32 = (0 : EReal) := Ideal.ofBits_zero_f32
  have hb : Ideal.ofBits .f32 0xFF800000#32 = (⊥ : EReal) := by simp [Ideal.ofBits, Ideal.ieee]
  rw [h0, hz, hb]
  by_cases h : s ≤ t
  · rw [hc.mpr h, select_one, if_pos h]
  · rw [eq_zero_of_ne_one (fun hh => h (hc.mp hh)), select_zero, if_neg h]

theorem mask3_value (b : Fin 8) (t s : Fin 2048) :
    val_main_v11 (F := Ideal) (ix3 b t s) = if s ≤ t then 0 else ⊥ := by
  rw [val_main_v11_apply, val_main_v10_apply]
  have e : idx_main_v10 (idx_main_v11 (ix3 b t s)) = ix2 t s :=
    funext fun a => by match a with | ⟨0, _⟩ => rfl | ⟨1, _⟩ => rfl
  rw [e, mask_value]

theorem corr_value (b : Fin 8) (t s : Fin 2048) :
    val_main_v4 (F := Ideal) x0 x1 x2 (ix3 b t s) = Spec.corr (P x0 x1 x2) b t s := by
  rw [val_main_v4_apply]
  unfold Spec.corr
  refine Finset.sum_congr rfl fun k _ => ?_
  have el : lidx_main_v4 (ix3 b t s) k = ix3 b t k :=
    funext fun a => by match a with | ⟨0, _⟩ => rfl | ⟨1, _⟩ => rfl | ⟨2, _⟩ => rfl
  have er : ridx_main_v4 (ix3 b t s) k = ix3 b s k :=
    funext fun a => by match a with | ⟨0, _⟩ => rfl | ⟨1, _⟩ => rfl | ⟨2, _⟩ => rfl
  rw [el, er, proj_value, proj_value]

theorem divisor_value (i : S8x2048x2048.Idx) : val_main_v6 (F := Ideal) i = R := by
  rw [val_main_v6_apply, val_main_v5_apply, val_main_cst_apply]
  rfl

theorem score_value (b : Fin 8) (t s : Fin 2048) :
    val_main_v12 (F := Ideal) x0 x1 x2 (ix3 b t s) = Spec.rsc R (P x0 x1 x2) b t s := by
  rw [val_main_v12_apply, val_main_v7_apply, corr_value, divisor_value, mask3_value]
  rfl

theorem ofBits_negInf : Ideal.ofBits .f32 0xFF800000#32 = (⊥ : EReal) := by simp [Ideal.ofBits, Ideal.ieee]

theorem reduces_rows : S8x2048x2048.Reduces [1] S8x2048 := by decide

theorem lift_rows (b : Fin 8) (s : Fin 2048) (k : Fin (S8x2048x2048.size 1)) :
    reduces_rows.lift (ix2 b s) k = ix3 b (⟨k.val, k.isLt⟩ : Fin 2048) s := by
  funext c; apply Fin.ext
  fin_cases c <;> rfl

theorem colMax_fold (b : Fin 8) (s : Fin 2048) :
    val_main_v13 (F := Ideal) x0 x1 x2 (ix2 b s)
      = (Finset.univ : Finset (Fin 2048)).fold max ⊥ (fun t => Spec.rsc R (P x0 x1 x2) b t s) := by
  unfold val_main_v13
  rw [Host.reduce_eq_fold_single (FloatOps.maximumf (F := Ideal) (φ := .f32)) _ _ reducesTo_S8x2048x2048_S8x2048_d1 reduces_rows h_S_]
  have hf : (val_main_v12 (F := Ideal) x0 x1 x2 ∘ reduces_rows.lift (ix2 b s))
      = fun t : Fin 2048 => Spec.rsc R (P x0 x1 x2) b t s :=
    funext fun k => (congrArg (val_main_v12 (F := Ideal) x0 x1 x2) (lift_rows b s k)).trans (score_value x0 x1 x2 b ⟨k.val, k.isLt⟩ s)
  have hi : val_main_cst_1 (F := Ideal) (Shape.Idx.first h_S_) = (⊥ : EReal) := by
    rw [val_main_cst_1_apply]; exact ofBits_negInf
  rw [hi]
  exact congrArg (fun f => Finset.fold max (⊥ : EReal) f (Finset.univ : Finset (Fin 2048))) hf

theorem colMax_value (b : Fin 8) (s : Fin 2048) :
    val_main_v15 (F := Ideal) x0 x1 x2 (ix2 b s) = Spec.colMax R (P x0 x1 x2) b s := by
  rw [val_main_v15_apply, val_main_v14_apply, val_main_cst_2_apply, colMax_fold]
  show max (Ideal.ofBits .f32 0xFF800000#32) _ = _
  rw [ofBits_negInf]
  rfl

theorem exp_value (b : Fin 8) (t s : Fin 2048) :
    val_main_v19 (F := Ideal) x0 x1 x2 (ix3 b t s)
      = Ideal.exp (Spec.rsc R (P x0 x1 x2) b t s - Spec.colMax R (P x0 x1 x2) b s) := by
  rw [val_main_v19_apply, val_main_v18_apply, score_value, val_main_v17_apply, val_main_v16_apply]
  have e : idx_main_v16 (idx_main_v17 (ix3 b t s)) = ix2 b s :=
    funext fun a => by match a with | ⟨0, _⟩ => rfl | ⟨1, _⟩ => rfl
  rw [e, colMax_value]
  rfl

theorem colSum_value (b : Fin 8) (s : Fin 2048) :
    val_main_v20 (F := Ideal) x0 x1 x2 (ix2 b s) = Spec.colSum R (P x0 x1 x2) b s := by
  rw [val_main_v20_apply, val_main_cst_3_apply]
  unfold Spec.colSum
  show Ideal.ofBits .f32 0x00000000#32 + _ = _
  rw [Ideal.ofBits_zero_f32]
  refine congrArg (0 + ·) (Finset.sum_congr rfl fun k _ => ?_)
  have e : idx_main_v20 (ix2 b s) k = ix3 b k s :=
    funext fun a => by match a with | ⟨0, _⟩ => rfl | ⟨1, _⟩ => rfl | ⟨2, _⟩ => rfl
  rw [e, exp_value]

theorem out_value (b : Fin 8) (t : Fin 2048) (d : Fin 1024) :
    val_main_v24 (F := Ideal) x0 x1 x2 (ix3 b t d) = Spec.outR R (P x0 x1 x2) (X x0) b t d := by
  rw [val_main_v24_apply]
  unfold Spec.outR
  refine Finset.sum_congr rfl fun k _ => ?_
  have el : lidx_main_v24 (ix3 b t d) k = ix3 b t k :=
    funext fun a => by match a with | ⟨0, _⟩ => rfl | ⟨1, _⟩ => rfl | ⟨2, _⟩ => rfl
  have er : ridx_main_v24 (ix3 b t d) k = ix3 b k d :=
    funext fun a => by match a with | ⟨0, _⟩ => rfl | ⟨1, _⟩ => rfl | ⟨2, _⟩ => rfl
  have e : idx_main_v21 (idx_main_v22 (ix3 b t k)) = ix2 b k :=
    funext fun a => by match a with | ⟨0, _⟩ => rfl | ⟨1, _⟩ => rfl
  rw [el, er, val_main_v23_apply, exp_value, val_main_v22_apply, val_main_v21_apply, e, colSum_value]
  rfl

/-- The reference's result at (b, t, d), read off its run one operation at a time. -/
theorem ref_value (m : (ℓ : Loc nD τ sig) → Buf (Elt Ideal) ℓ) (c : Dev nD) (b : Fin 8) (t : Fin 2048) (d : Fin 1024) :
    Cert.ReferenceIdeal.Value.res_out0 (F := Ideal) m c (ix3 b t d)
      = Spec.outR (Ideal.sqrt (Ideal.ofBits .f32 0x44800000#32))
          (Spec.proj (fun b t d => m ((c.tc : Thread nD τ).loc main_arg0) (ix3 b t d))
            (fun d e => m ((c.tc : Thread nD τ).loc main_arg1) (ix2 d e))
            (fun e => m ((c.tc : Thread nD τ).loc main_arg2) (ix1 e)))
          (fun b t d => m ((c.tc : Thread nD τ).loc main_arg0) (ix3 b t d)) b t d := by
  show Cert.ReferenceIdeal.Value.res_main_v24 m c (ix3 b t d) = _
  rw [val_main_v24_eq]
  exact out_value _ _ _ b t d

end Cert.ReferenceIdeal.RefVal

end
-- ==== Proof.LibERealBatchNorm.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Ring.Finset
import Mathlib.Analysis.SpecialFunctions.Pow.Real
import Mathlib.Tactic.Ring
import Mathlib.Tactic.FieldSimp
import Mathlib.Tactic.Positivity
import Mathlib.Tactic.Linarith

noncomputable section

namespace Cert.ERealBN

open Idealize.ShloMosaic
open scoped BigOperators

def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact IsReal.add (h a (Finset.mem_insert_self a s))
      (ih (fun i hi => h i (Finset.mem_insert_of_mem hi)))

theorem IsReal.div_coe {x : EReal} (hx : IsReal x) {r : ℝ} (hr : r ≠ 0) : IsReal (Ideal.div x (r : EReal)) := by
  rw [Ideal.div_coe hr x]
  exact IsReal.mul hx (IsReal.coe _)

theorem ofBits_zero : Ideal.ofBits .f32 0x00000000#32 = 0 := by
  simp [Ideal.ofBits, Ideal.ieee]

end Cert.ERealBN

end
-- ==== Proof.AlgebraLemmas.lean ====
import proofs.«138723_j18210661335624_2_alg».proof.Proof.Spec
import proofs.«138723_j18210661335624_2_alg».proof.Proof.LibERealBatchNorm
import Mathlib.Data.Finset.Lattice.Fold
import Mathlib.Data.Fintype.BigOperators
import Mathlib.Algebra.BigOperators.Fin
import Mathlib.Analysis.SpecialFunctions.Log.Basic
import Mathlib.Tactic.FinCases

noncomputable section

namespace Cert.Spec

open Idealize.ShloMosaic Cert.ERealBN
open scoped BigOperators

theorem exp_sub_real {u : EReal} (hu : u = ⊥ ∨ IsReal u) (m : ℝ) :
    ∃ e : ℝ, 0 ≤ e ∧ (IsReal u → 0 < e) ∧ Ideal.exp (u - (m : EReal)) = (e : EReal) := by
  rcases hu with rfl | ⟨r, rfl⟩
  · refine ⟨0, le_rfl, ?_, by rw [EReal.bot_sub]; rfl⟩
    rintro ⟨r, hr⟩
    exact absurd hr (EReal.bot_ne_coe r)
  · exact ⟨Real.exp (r - m), (Real.exp_pos _).le, fun _ => Real.exp_pos _, by rw [← EReal.coe_sub]; rfl⟩

/-- exp(m₁ − m₂)·exp(u − m₁) = exp(u − m₂), also at u = −∞. -/
theorem exp_rescale {u : EReal} (hu : u = ⊥ ∨ IsReal u) (m₁ m₂ : ℝ) :
    Ideal.exp ((m₁ : EReal) - (m₂ : EReal)) * Ideal.exp (u - (m₁ : EReal)) = Ideal.exp (u - (m₂ : EReal)) := by
  rcases hu with rfl | ⟨r, rfl⟩
  · rw [EReal.bot_sub, EReal.bot_sub, Ideal.exp_bot, mul_zero]
  · rw [← EReal.coe_sub, ← EReal.coe_sub, ← EReal.coe_sub, Ideal.exp_coe, Ideal.exp_coe, Ideal.exp_coe,
      ← EReal.coe_mul, ← Real.exp_add]
    congr 2
    ring

theorem sum_exp_rescale {ι : Type*} [Fintype ι] (u : ι → EReal) (hu : ∀ i, u i = ⊥ ∨ IsReal (u i)) (m₁ m₂ : ℝ) :
    Ideal.exp ((m₁ : EReal) - (m₂ : EReal)) * ∑ i, Ideal.exp (u i - (m₁ : EReal))
      = ∑ i, Ideal.exp (u i - (m₂ : EReal)) := by
  choose e _ _ he using fun i => exp_sub_real (hu i) m₁
  have h2 : ∀ i, Ideal.exp (u i - (m₂ : EReal)) = ((Real.exp (m₁ - m₂) * e i : ℝ) : EReal) := by
    intro i
    rw [← exp_rescale (hu i) m₁ m₂, he i, ← EReal.coe_sub, Ideal.exp_coe, EReal.coe_mul]
  simp_rw [h2, he, coe_sum]
  rw [← EReal.coe_sub, Ideal.exp_coe, ← EReal.coe_mul, Finset.mul_sum]

theorem sum_exp_pos {ι : Type*} [Fintype ι] (u : ι → EReal) (hu : ∀ i, u i = ⊥ ∨ IsReal (u i)) (m : ℝ)
    (i₀ : ι) (h₀ : IsReal (u i₀)) :
    ∃ l : ℝ, 0 < l ∧ ∑ i, Ideal.exp (u i - (m : EReal)) = (l : EReal) := by
  choose e he0 hepos he using fun i => exp_sub_real (hu i) m
  refine ⟨∑ i, e i, ?_, by simp_rw [he, coe_sum]⟩
  exact Finset.sum_pos' (fun i _ => he0 i) ⟨i₀, Finset.mem_univ _, hepos i₀ h₀⟩

/-- exp(u − (M + log l)) = exp(u − M) / l. -/
theorem exp_sub_lse {u : EReal} (hu : u = ⊥ ∨ IsReal u) (M : ℝ) {l : ℝ} (hl : 0 < l) :
    Ideal.exp (u - ((M : EReal) + Ideal.log (l : EReal)))
      = Ideal.div (Ideal.exp (u - (M : EReal))) (l : EReal) := by
  rw [Ideal.div_coe hl.ne', Ideal.log_coe, if_neg (not_le.mpr hl), ← EReal.coe_add]
  rcases hu with rfl | ⟨r, rfl⟩
  · rw [EReal.bot_sub, EReal.bot_sub, Ideal.exp_bot, zero_mul]
  · rw [← EReal.coe_sub, ← EReal.coe_sub, Ideal.exp_coe, Ideal.exp_coe, ← EReal.coe_mul]
    congr 1
    rw [← sub_sub, Real.exp_sub, Real.exp_log hl]
    ring

theorem fold_max_eq_sup {ι : Type*} (s : Finset ι) (f : ι → EReal) : s.fold max ⊥ f = s.sup f := rfl

theorem sup_isReal {ι : Type*} [Fintype ι] (u : ι → EReal) (hu : ∀ i, u i = ⊥ ∨ IsReal (u i))
    (i₀ : ι) (h₀ : IsReal (u i₀)) : IsReal (Finset.univ.sup u) := by
  have hlt : Finset.univ.sup u < ⊤ := by
    refine (Finset.sup_lt_iff bot_lt_top).2 (fun i _ => ?_)
    rcases hu i with h | ⟨r, h⟩
    · rw [h]; exact bot_lt_top
    · rw [h]; exact EReal.coe_lt_top r
  have hgt : ⊥ < Finset.univ.sup u := by
    obtain ⟨r, h⟩ := h₀
    exact lt_of_lt_of_le (h ▸ EReal.bot_lt_coe r) (Finset.le_sup (f := u) (Finset.mem_univ i₀))
  exact ⟨_, (EReal.coe_toReal hlt.ne hgt.ne').symm⟩

theorem sup_bot {ι : Type*} (s : Finset ι) (u : ι → EReal) (hu : ∀ i, u i = ⊥) : s.sup u = ⊥ := by
  rw [Finset.sup_eq_bot_iff]
  exact fun i _ => hu i

def rowEquiv : Fin 2 × Fin 1024 ≃ Fin 2048 where
  toFun q := row q.1 q.2
  invFun t := (⟨t.val / 1024, by have := t.isLt; omega⟩, ⟨t.val % 1024, Nat.mod_lt _ (by norm_num)⟩)
  left_inv := by
    rintro ⟨K, j⟩
    have := K.isLt; have := j.isLt
    ext <;> simp only [row] <;> omega
  right_inv := by
    intro t
    ext
    simp only [row]
    omega

def colEquiv : Fin 4 × Fin 512 ≃ Fin 2048 where
  toFun q := col q.1 q.2
  invFun s := (⟨s.val / 512, by have := s.isLt; omega⟩, ⟨s.val % 512, Nat.mod_lt _ (by norm_num)⟩)
  left_inv := by
    rintro ⟨S, j⟩
    have := S.isLt; have := j.isLt
    ext <;> simp only [col] <;> omega
  right_inv := by
    intro s
    ext
    simp only [col]
    omega

theorem exists_row (t : Fin 2048) : ∃ K j, t = row K j :=
  ⟨(rowEquiv.symm t).1, (rowEquiv.symm t).2, (rowEquiv.apply_symm_apply t).symm⟩

/-- A sum over 2048 rows is the sum over 2 blocks of 1024. -/
theorem sum_rows {M : Type*} [AddCommMonoid M] (f : Fin 2048 → M) :
    ∑ t, f t = (∑ j, f (row 0 j)) + ∑ j, f (row 1 j) := by
  rw [← Fintype.sum_equiv rowEquiv (fun q => f (row q.1 q.2)) f (fun _ => rfl), Fintype.sum_prod_type,
    Fin.sum_univ_two]

theorem sum_cols {M : Type*} [AddCommMonoid M] (f : Fin 2048 → M) :
    ∑ S : Fin 4, ∑ j : Fin 512, f (col S j) = ∑ s, f s := by
  rw [← Fintype.sum_equiv colEquiv (fun q => f (col q.1 q.2)) f (fun _ => rfl), Fintype.sum_prod_type]

theorem sup_rows (v : Fin 2048 → EReal) :
    Finset.univ.sup v = max (Finset.univ.sup fun j => v (row 0 j)) (Finset.univ.sup fun j => v (row 1 j)) := by
  apply le_antisymm
  · refine Finset.sup_le fun t _ => ?_
    obtain ⟨K, j, rfl⟩ := exists_row t
    fin_cases K
    · exact le_max_of_le_left (Finset.le_sup (f := fun j => v (row 0 j)) (Finset.mem_univ j))
    · exact le_max_of_le_right (Finset.le_sup (f := fun j => v (row 1 j)) (Finset.mem_univ j))
  · exact max_le (Finset.sup_le fun j _ => Finset.le_sup (f := v) (Finset.mem_univ _))
      (Finset.sup_le fun j _ => Finset.le_sup (f := v) (Finset.mem_univ _))

end Cert.Spec

end
-- ==== Proof.Algebra.lean ====
import proofs.«138723_j18210661335624_2_alg».proof.Proof.AlgebraLemmas

noncomputable section

namespace Cert.Spec

open Idealize.ShloMosaic Cert.ERealBN
open scoped BigOperators

theorem proj_isReal (x : Fin 8 → Fin 2048 → Fin 1024 → EReal) (w : Fin 1024 → Fin 1024 → EReal)
    (bias : Fin 1024 → EReal) (hx : ∀ b t d, IsReal (x b t d)) (hw : ∀ d e, IsReal (w d e))
    (hb : ∀ e, IsReal (bias e)) (b : Fin 8) (t : Fin 2048) (e : Fin 1024) : IsReal (proj x w bias b t e) :=
  IsReal.add (IsReal.sum _ _ fun d _ => (hx b t d).mul (hw d e)) (hb e)

section
variable (p : Fin 8 → Fin 2048 → Fin 1024 → EReal) (hp : ∀ b t e, IsReal (p b t e))
include hp

theorem corr_isReal (b : Fin 8) (t s : Fin 2048) : IsReal (corr p b t s) :=
  IsReal.sum _ _ fun e _ => (hp b t e).mul (hp b s e)

theorem ksc_of_le (b : Fin 8) {t s : Fin 2048} (h : s ≤ t) :
    IsReal (ksc (((1 / 32 : ℝ)) : EReal) ⊥ p b t s) := by
  unfold ksc
  rw [if_pos h]
  exact (corr_isReal p hp b t s).mul (IsReal.coe _)

omit hp in
theorem ksc_of_not_le (c : EReal) (b : Fin 8) {t s : Fin 2048} (h : ¬ s ≤ t) : ksc c ⊥ p b t s = ⊥ := by
  unfold ksc
  rw [if_neg h]

theorem ksc_cases (b : Fin 8) (t s : Fin 2048) :
    ksc (((1 / 32 : ℝ)) : EReal) ⊥ p b t s = ⊥ ∨ IsReal (ksc (((1 / 32 : ℝ)) : EReal) ⊥ p b t s) := by
  by_cases h : s ≤ t
  · exact Or.inr (ksc_of_le p hp b h)
  · exact Or.inl (ksc_of_not_le p _ b h)

/-- For r = 32 the two masked scores agree: dividing by 32 is multiplying by 1/32, and adding −∞ gives −∞. -/
theorem rsc_eq_ksc (b : Fin 8) (t s : Fin 2048) :
    rsc ((32 : ℝ) : EReal) p b t s = ksc (((1 / 32 : ℝ)) : EReal) ⊥ p b t s := by
  obtain ⟨a, ha⟩ := corr_isReal p hp b t s
  unfold rsc ksc
  rw [Ideal.div_coe (by norm_num : (32 : ℝ) ≠ 0), ha]
  by_cases h : s ≤ t
  · rw [if_pos h, if_pos h, add_zero]
  · rw [if_neg h, if_neg h, EReal.add_bot]

omit hp in
theorem step_bot (c neg : EReal) (b : Fin 8) (s : Fin 2048) (K : Fin 2) :
    step c neg p b s K (⊥, 0) = (blkMax c neg p b s K, blkSum c neg p b s K (blkMax c neg p b s K)) := by
  unfold step
  simp only [max_bot_left, EReal.bot_sub, Ideal.exp_bot, mul_zero, zero_add]

/-- The running (maximum, sum) over a column's row blocks is the column's maximum and its sum of exponentials: rescaling by exp(m_old − m_new) is exact on reals. -/
theorem stats_eq (b : Fin 8) (s : Fin 2048) :
    ∃ M l : ℝ, 0 < l ∧ stats (((1 / 32 : ℝ)) : EReal) ⊥ p b s = ((M : EReal), (l : EReal))
      ∧ colMax ((32 : ℝ) : EReal) p b s = (M : EReal) ∧ colSum ((32 : ℝ) : EReal) p b s = (l : EReal) := by
  have hv : ∀ t, ksc (((1 / 32 : ℝ)) : EReal) ⊥ p b t s = ⊥ ∨ IsReal (ksc (((1 / 32 : ℝ)) : EReal) ⊥ p b t s) :=
    fun t => ksc_cases p hp b t s
  have hvs : IsReal (ksc (((1 / 32 : ℝ)) : EReal) ⊥ p b s s) := ksc_of_le p hp b le_rfl
  have hcm : colMax ((32 : ℝ) : EReal) p b s
      = Finset.univ.sup fun t => ksc (((1 / 32 : ℝ)) : EReal) ⊥ p b t s := by
    unfold colMax
    simp_rw [rsc_eq_ksc p hp]
    rw [max_bot_left, fold_max_eq_sup]
  obtain ⟨M, hM⟩ := sup_isReal _ hv s hvs
  obtain ⟨l, hl0, hl⟩ := sum_exp_pos _ hv M s hvs
  have hcs : colSum ((32 : ℝ) : EReal) p b s = (l : EReal) := by
    unfold colSum
    simp_rw [rsc_eq_ksc p hp]
    rw [hcm, hM, zero_add, hl]
  refine ⟨M, l, hl0, ?_, hcm.trans hM, hcs⟩
  have hB : ∀ K, blkMax (((1 / 32 : ℝ)) : EReal) ⊥ p b s K
      = Finset.univ.sup fun j => ksc (((1 / 32 : ℝ)) : EReal) ⊥ p b (row K j) s := fun K => rfl
  have hmax : max (blkMax (((1 / 32 : ℝ)) : EReal) ⊥ p b s 0) (blkMax (((1 / 32 : ℝ)) : EReal) ⊥ p b s 1)
      = (M : EReal) := by
    rw [hB, hB, ← sup_rows (fun t => ksc (((1 / 32 : ℝ)) : EReal) ⊥ p b t s), hM]
  have hsum : (∑ j, Ideal.exp (ksc (((1 / 32 : ℝ)) : EReal) ⊥ p b (row 0 j) s - (M : EReal)))
      + ∑ j, Ideal.exp (ksc (((1 / 32 : ℝ)) : EReal) ⊥ p b (row 1 j) s - (M : EReal)) = (l : EReal) := by
    rw [← hl, sum_rows (fun t => Ideal.exp (ksc (((1 / 32 : ℝ)) : EReal) ⊥ p b t s - (M : EReal)))]
  unfold stats
  split_ifs with hs
  ·
    have hs0 : row 0 ⟨s.val, hs⟩ = s := Fin.ext (by simp [row])
    obtain ⟨M0, hM0⟩ : IsReal (blkMax (((1 / 32 : ℝ)) : EReal) ⊥ p b s 0) := by
      rw [hB]
      exact sup_isReal _ (fun j => hv (row 0 j)) ⟨s.val, hs⟩ (by rw [hs0]; exact hvs)
    rw [step_bot]
    unfold step
    simp only []
    rw [hmax, hM0]
    refine Prod.ext rfl ?_
    show Ideal.exp ((M0 : EReal) - (M : EReal)) * blkSum _ ⊥ p b s 0 (M0 : EReal) + blkSum _ ⊥ p b s 1 (M : EReal) = (l : EReal)
    unfold blkSum
    rw [sum_exp_rescale _ (fun j => hv (row 0 j)) M0 M, hsum]
  ·
    have hbot : ∀ j : Fin 1024, ksc (((1 / 32 : ℝ)) : EReal) ⊥ p b (row 0 j) s = ⊥ := by
      intro j
      refine ksc_of_not_le p _ b ?_
      have := j.isLt
      simp only [Fin.le_def, row]
      omega
    have hB0 : blkMax (((1 / 32 : ℝ)) : EReal) ⊥ p b s 0 = ⊥ := by
      rw [hB]; exact sup_bot _ _ hbot
    rw [hB0, max_bot_left] at hmax
    rw [step_bot, hmax]
    refine Prod.ext rfl ?_
    show blkSum _ ⊥ p b s 1 (M : EReal) = (l : EReal)
    unfold blkSum
    rw [← hsum]
    simp_rw [hbot, EReal.bot_sub, Ideal.exp_bot]
    rw [Finset.sum_const_zero, zero_add]

/-- exp(v − (m + log l)) = exp(v − m) / l for l > 0. -/
theorem weight_eq (b : Fin 8) (t s : Fin 2048) :
    Ideal.exp (ksc (((1 / 32 : ℝ)) : EReal) ⊥ p b t s - lseK (((1 / 32 : ℝ)) : EReal) ⊥ p b s)
      = Ideal.div (Ideal.exp (rsc ((32 : ℝ) : EReal) p b t s - colMax ((32 : ℝ) : EReal) p b s))
          (colSum ((32 : ℝ) : EReal) p b s) := by
  obtain ⟨M, l, hl, hst, hM, hS⟩ := stats_eq p hp b s
  unfold lseK
  rw [hst, hM, hS, rsc_eq_ksc p hp]
  exact exp_sub_lse (ksc_cases p hp b t s) M hl

theorem outK_eq_outR_of_real (x : Fin 8 → Fin 2048 → Fin 1024 → EReal) (b : Fin 8) (t : Fin 2048) (d : Fin 1024) :
    outK (((1 / 32 : ℝ)) : EReal) ⊥ p (lseK (((1 / 32 : ℝ)) : EReal) ⊥ p) x b t d
      = outR ((32 : ℝ) : EReal) p x b t d := by
  unfold outK outR
  have hskip : ∀ S : Fin 4,
      (if S.val * 512 < (t.val / 1024 + 1) * 1024 then
        ∑ j : Fin 512, Ideal.exp (ksc (((1 / 32 : ℝ)) : EReal) ⊥ p b t (col S j)
          - lseK (((1 / 32 : ℝ)) : EReal) ⊥ p b (col S j)) * x b (col S j) d
       else 0)
      = ∑ j : Fin 512, Ideal.exp (ksc (((1 / 32 : ℝ)) : EReal) ⊥ p b t (col S j)
          - lseK (((1 / 32 : ℝ)) : EReal) ⊥ p b (col S j)) * x b (col S j) d := by
    intro S
    split_ifs with h
    · rfl
    · symm
      refine Finset.sum_eq_zero fun j _ => ?_
      have hk : ksc (((1 / 32 : ℝ)) : EReal) ⊥ p b t (col S j) = ⊥ := by
        refine ksc_of_not_le p _ b ?_
        have := t.isLt
        simp only [Fin.le_def, col]
        omega
      rw [hk, EReal.bot_sub, Ideal.exp_bot, zero_mul]
  simp_rw [hskip]
  rw [sum_cols (fun s => Ideal.exp (ksc (((1 / 32 : ℝ)) : EReal) ⊥ p b t s
      - lseK (((1 / 32 : ℝ)) : EReal) ⊥ p b s) * x b s d)]
  exact Finset.sum_congr rfl fun s _ => by rw [weight_eq p hp b t s]

end

/-- On real inputs the kernel's output is the reference's: the column blocks skipped lie wholly above the diagonal, where every weight is 0. -/
theorem outK_eq_outR (x : Fin 8 → Fin 2048 → Fin 1024 → EReal) (w : Fin 1024 → Fin 1024 → EReal) (bias : Fin 1024 → EReal)
    (hx : ∀ b t d, ∃ r : ℝ, x b t d = (r : EReal)) (hw : ∀ d e, ∃ r : ℝ, w d e = (r : EReal))
    (hb : ∀ e, ∃ r : ℝ, bias e = (r : EReal)) (b : Fin 8) (t : Fin 2048) (d : Fin 1024) :
    outK (((1 / 32 : ℝ)) : EReal) ⊥ (proj x w bias) (lseK (((1 / 32 : ℝ)) : EReal) ⊥ (proj x w bias)) x b t d
      = outR ((32 : ℝ) : EReal) (proj x w bias) x b t d :=
  outK_eq_outR_of_real (proj x w bias) (proj_isReal x w bias hx hw hb) x b t d

end Cert.Spec

end
-- ==== Proof.Finite.lean ====
import proofs.«138723_j18210661335624_2_alg».proof.Defs
import proofs.«138723_j18210661335624_2_alg».proof.Proof.Gen.Pre_finite_inputs
import Idealize.ShloMosaic.Lib.ReduceAll
import Idealize.ShloMosaic.Lib.ValueIdx

noncomputable section

namespace Cert.Proof.Fin

open Idealize.ShloMosaic Idealize.SL.Sem

theorem ofBits_inf : Ideal.ofBits .f32 0x7F800000#32 = ⊤ := by
  simp [Ideal.ofBits, Ideal.ieee]

theorem real_of_abs_lt_top (x : EReal) (h : max x (-x) < ⊤) : ∃ r : ℝ, x = (r : EReal) := by
  induction x using EReal.rec with
  | bot => simp at h
  | coe r => exact ⟨r, rfl⟩
  | top => simp at h

theorem real_of_cmp (x : EReal)
    (h : Ideal.cmp .olt (max x (-x)) (Ideal.ofBits .f32 0x7F800000#32) = 1#1) : ∃ r : ℝ, x = (r : EReal) := by
  refine real_of_abs_lt_top x ?_
  rw [ofBits_inf] at h
  by_contra hn
  simp [Ideal.cmp, hn] at h

instance : Subsingleton Cert.Pre_finite_inputs.S_.Idx := ⟨fun a b => funext fun d => d.elim0⟩

/-- Under the precondition every entry of the three arguments is a real number. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) := by
  have h0 := congrFun (h c) ValueIdx.ix0
  dsimp only [Cert.Pre_finite_inputs.fn, andi] at h0
  obtain ⟨h01, h2⟩ := IntOp.andi_eq_one.1 h0
  obtain ⟨h0', h1⟩ := IntOp.andi_eq_one.1 h01
  exact ⟨fun i => real_of_cmp _ (Host.reduce_andi_all _ _ _ _ _ h0' i),
    fun i => real_of_cmp _ (Host.reduce_andi_all _ _ _ _ _ h1 i),
    fun i => real_of_cmp _ (Host.reduce_andi_all _ _ _ _ _ h2 i)⟩

theorem arg0_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (b : Fin 8) (t : Fin 2048) (d : Fin 1024) :
    ∃ r : ℝ, m ((c.tc : Thread Cert.KernelIdeal.nD Cert.KernelIdeal.τ).loc Cert.KernelIdeal.main_arg0) (ValueIdx.ix3 b t d) = (r : EReal) :=
  (finite_of_pre m h c).1 (ValueIdx.ix3 b t d)

theorem arg1_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (d e : Fin 1024) :
    ∃ r : ℝ, m ((c.tc : Thread Cert.KernelIdeal.nD Cert.KernelIdeal.τ).loc Cert.KernelIdeal.main_arg1) (ValueIdx.ix2 d e) = (r : EReal) :=
  (finite_of_pre m h c).2.1 (ValueIdx.ix2 d e)

theorem arg2_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (e : Fin 1024) :
    ∃ r : ℝ, m ((c.tc : Thread Cert.KernelIdeal.nD Cert.KernelIdeal.τ).loc Cert.KernelIdeal.main_arg2) (ValueIdx.ix1 e) = (r : EReal) :=
  (finite_of_pre m h c).2.2 (ValueIdx.ix1 e)

theorem c32_eq : Ideal.ofBits .f32 0x3D000000#32 = (((1 / 32 : ℝ)) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

/-- √1024 = 32. -/
theorem sqrt1024_eq : Ideal.sqrt (Ideal.ofBits .f32 0x44800000#32) = ((32 : ℝ) : EReal) := by
  rw [ofBits_1024, Ideal.sqrt_coe, if_neg (by norm_num)]
  exact congrArg _ ((Real.sqrt_eq_iff_mul_self_eq (by norm_num) (by norm_num)).2 (by norm_num))

theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

end Cert.Proof.Fin

end
-- ==== Proof.ValueChain.lean ====
import proofs.«138723_j18210661335624_2_alg».proof.Proof.Spec
import proofs.«138723_j18210661335624_2_alg».proof.Proof.Algebra
import Idealize.ShloMosaic.Lib.ValueIdx

noncomputable section

namespace Cert.Spec

open Idealize.ShloMosaic ValueIdx

/-- Region 0's projection into region 1's statistics into region 2's sums, on real inputs, is the reference's output. -/
theorem kernel_chain (c : EReal) (hc : c = (((1 / 32 : ℝ)) : EReal))
    (M0 : (⟨3, ![8, 2048, 1024]⟩ : Shape).Idx → EReal) (M1 : (⟨2, ![1024, 1024]⟩ : Shape).Idx → EReal)
    (M2 : (⟨1, ![1024]⟩ : Shape).Idx → EReal)
    (hx : ∀ b t d, ∃ r : ℝ, M0 (ix3 b t d) = (r : EReal)) (hw : ∀ d e, ∃ r : ℝ, M1 (ix2 d e) = (r : EReal))
    (hb : ∀ e, ∃ r : ℝ, M2 (ix1 e) = (r : EReal))
    (A0 : (⟨3, ![8, 2048, 1024]⟩ : Shape).Idx → EReal) (A1 : (⟨2, ![1024, 1024]⟩ : Shape).Idx → EReal)
    (Bv : (⟨2, ![1, 1024]⟩ : Shape).Idx → EReal)
    (hA0 : A0 = M0) (hA1 : A1 = M1) (hBv : ∀ e : Fin 1024, Bv (ix2 (0 : Fin 1) e) = M2 (ix1 e))
    (P Xr : (⟨3, ![8, 2048, 1024]⟩ : Shape).Idx → EReal)
    (hP : ∀ b t e, P (ix3 b t e)
      = proj (fun b t d => A0 (ix3 b t d)) (fun d e => A1 (ix2 d e)) (fun e => Bv (ix2 (0 : Fin 1) e)) b t e)
    (hXr : ∀ b t d, Xr (ix3 b t d) = A0 (ix3 b t d))
    (P1 : (⟨3, ![8, 2048, 1024]⟩ : Shape).Idx → EReal) (hP1 : P1 = P)
    (L : (⟨3, ![8, 1, 2048]⟩ : Shape).Idx → EReal)
    (hL : ∀ b s, L (ix3 b (0 : Fin 1) s) = lseK c ⊥ (fun b t e => P1 (ix3 b t e)) b s)
    (P2 Xr2 : (⟨3, ![8, 2048, 1024]⟩ : Shape).Idx → EReal) (L2 : (⟨3, ![8, 1, 2048]⟩ : Shape).Idx → EReal)
    (hP2 : P2 = P1) (hXr2 : Xr2 = Xr) (hL2 : L2 = L)
    (O : (⟨3, ![8, 2048, 1024]⟩ : Shape).Idx → EReal)
    (hO : ∀ b t d, O (ix3 b t d)
      = outK c ⊥ (fun b t e => P2 (ix3 b t e)) (fun b s => L2 (ix3 b (0 : Fin 1) s)) (fun b s d => Xr2 (ix3 b s d)) b t d)
    (b : Fin 8) (t : Fin 2048) (d : Fin 1024) :
    O (ix3 b t d)
      = outR ((32 : ℝ) : EReal)
          (proj (fun b t d => M0 (ix3 b t d)) (fun d e => M1 (ix2 d e)) (fun e => M2 (ix1 e)))
          (fun b t d => M0 (ix3 b t d)) b t d := by
  subst hA0 hA1 hP1 hP2 hXr2 hL2 hc
  have eB : (fun e : Fin 1024 => Bv (ix2 (0 : Fin 1) e)) = fun e => M2 (ix1 e) := funext hBv
  have eP : (fun b t e => P2 (ix3 b t e))
      = proj (fun b t d => A0 (ix3 b t d)) (fun d e => A1 (ix2 d e)) (fun e => M2 (ix1 e)) := by
    funext b t e; rw [hP, eB]
  have eX : (fun b s d => Xr2 (ix3 b s d)) = fun b t d => A0 (ix3 b t d) := by
    funext b s d; exact hXr b s d
  have eL : (fun b s => L2 (ix3 b (0 : Fin 1) s))
      = lseK (((1 / 32 : ℝ)) : EReal) ⊥
          (proj (fun b t d => A0 (ix3 b t d)) (fun d e => A1 (ix2 d e)) (fun e => M2 (ix1 e))) := by
    funext b s; rw [hL, eP]
  rw [hO, eP, eX, eL]
  exact outK_eq_outR _ _ _ hx hw hb b t d

end Cert.Spec

end
-- ==== Proof.KernelValue.lean ====
import proofs.«138723_j18210661335624_2_alg».proof.Proof.KI.Run
import proofs.«138723_j18210661335624_2_alg».proof.Proof.Val.V0
import proofs.«138723_j18210661335624_2_alg».proof.Proof.Val.V1
import proofs.«138723_j18210661335624_2_alg».proof.Proof.Val.V2
import proofs.«138723_j18210661335624_2_alg».proof.Proof.ValueChain
import proofs.«138723_j18210661335624_2_alg».proof.Proof.Finite
import Idealize.ShloMosaic.Lib.ValueLayout

noncomputable section

namespace Cert.KernelIdeal.Val

open Cert.KernelIdeal Cert.KernelIdeal.Gen Cert.KernelIdeal.Fr Idealize.ShloMosaic Idealize.ShloMosaic.TcCoe ValueIdx

theorem bias_row (m : (ℓ : Loc nD τ sig) → Buf (Elt Ideal) ℓ) (c : Dev nD) (e : Fin 1024) :
    Fr.E0 m c main_v0 (ix2 (0 : Fin 1) e) = m ((c.tc : Thread nD τ).loc main_arg2) (ix1 e) := by
  rw [Fr.E0_v0 m c]
  exact shapeCast_a_1a_apply _ _ 0 e

/-- The kernel program's result at (b, t, d): the three regions' values chained, then the algebra on real inputs. -/
theorem kernel_value [Cert.Pre_finite_inputs.Facts] (m : (ℓ : Loc nD τ sig) → Buf (Elt Ideal) ℓ) (h : Cert.Pre_KernelIdeal m)
    (c : Dev nD) (b : Fin 8) (t : Fin 2048) (d : Fin 1024) :
    (Fr.dat2 (F := Ideal) (Fr.E2 m) c).arrAt 4 cfg2.N (ix3 b t d)
      = Spec.outR ((32 : ℝ) : EReal)
          (Spec.proj (fun b t d => m ((c.tc : Thread nD τ).loc main_arg0) (ix3 b t d))
            (fun d e => m ((c.tc : Thread nD τ).loc main_arg1) (ix2 d e))
            (fun e => m ((c.tc : Thread nD τ).loc main_arg2) (ix1 e)))
          (fun b t d => m ((c.tc : Thread nD τ).loc main_arg0) (ix3 b t d)) b t d :=
  Spec.kernel_chain (Ideal.ofBits .f32 0x3D000000#32) Cert.Proof.Fin.c32_eq
    (m ((c.tc : Thread nD τ).loc main_arg0)) (m ((c.tc : Thread nD τ).loc main_arg1)) (m ((c.tc : Thread nD τ).loc main_arg2))
    (Cert.Proof.Fin.arg0_real m h c) (Cert.Proof.Fin.arg1_real m h c) (Cert.Proof.Fin.arg2_real m h c)
    (Fr.E0 m c main_arg0) (Fr.E0 m c main_arg1) (Fr.E0 m c main_v0)
    (Fr.E0_arg0 m c) (Fr.E0_arg1 m c) (bias_row m c)
    ((Fr.dat0 (Fr.E0 m) c).arrAt 3 cfg0.N) ((Fr.dat0 (Fr.E0 m) c).arrAt 4 cfg0.N)
    (xp_value (Fr.E0 m) c) (xraw_value (Fr.E0 m) c)
    (Fr.E1 m c main_v1_0) (Fr.E1_xp m c)
    ((Fr.dat1 (Fr.E1 m) c).arrAt 2 cfg1.N) (lse_value (Fr.E1 m) c)
    (Fr.E2 m c main_v1_0) (Fr.E2 m c main_v1_1) (Fr.E2 m c main_v2)
    (Fr.E2_xp m c) ((Fr.E2_xraw m c).trans (Fr.E1_xraw m c)) (Fr.E2_lse m c)
    ((Fr.dat2 (Fr.E2 m) c).arrAt 4 cfg2.N) (out_value (Fr.E2 m) c) b t d

end Cert.KernelIdeal.Val

end
-- ==== Proof.lean ====
import proofs.«138723_j18210661335624_2_alg».proof.Defs
import proofs.«138723_j18210661335624_2_alg».proof.Proof.Gen.Kernel
import proofs.«138723_j18210661335624_2_alg».proof.Proof.Gen.KernelIdeal
import proofs.«138723_j18210661335624_2_alg».proof.Proof.Gen.ReferenceIdeal
import proofs.«138723_j18210661335624_2_alg».proof.Proof.Gen.Pre_finite_inputs
import proofs.«138723_j18210661335624_2_alg».proof.Proof.Gen.ReferenceIdeal.Run
import proofs.«138723_j18210661335624_2_alg».proof.Proof.Gen.ReferenceIdeal.Read
import proofs.«138723_j18210661335624_2_alg».proof.Proof.KI.Run
import proofs.«138723_j18210661335624_2_alg».proof.Proof.WordFrame
import proofs.«138723_j18210661335624_2_alg».proof.Proof.Val.V0
import proofs.«138723_j18210661335624_2_alg».proof.Proof.Val.V1
import proofs.«138723_j18210661335624_2_alg».proof.Proof.Val.V2
import proofs.«138723_j18210661335624_2_alg».proof.Proof.RefVal
import proofs.«138723_j18210661335624_2_alg».proof.Proof.Algebra
import proofs.«138723_j18210661335624_2_alg».proof.Proof.Finite
import proofs.«138723_j18210661335624_2_alg».proof.Proof.ValueChain
import proofs.«138723_j18210661335624_2_alg».proof.Proof.KernelValue
import Idealize.ShloMosaic.Adequacy
import Idealize.ShloMosaic.Init

noncomputable section

namespace Cert.Proof

open Idealize.ShloMosaic Idealize.ShloMosaic.TcCoe Idealize.SL.Sem ValueIdx

/-- The array both programs end with: the reference's output at the arguments, its scores divided by 32. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v3) :=
  fun i => Spec.outR ((32 : ℝ) : EReal)
    (Spec.proj (fun b t d => m ((c.tc : Thread Cert.KernelIdeal.nD Cert.KernelIdeal.τ).loc Cert.KernelIdeal.main_arg0) (ix3 b t d))
      (fun d e => m ((c.tc : Thread Cert.KernelIdeal.nD Cert.KernelIdeal.τ).loc Cert.KernelIdeal.main_arg1) (ix2 d e))
      (fun e => m ((c.tc : Thread Cert.KernelIdeal.nD Cert.KernelIdeal.τ).loc Cert.KernelIdeal.main_arg2) (ix1 e)))
    (fun b t d => m ((c.tc : Thread Cert.KernelIdeal.nD Cert.KernelIdeal.τ).loc Cert.KernelIdeal.main_arg0) (ix3 b t d))
    (i 0) (i 1) (i 2)

theorem frame_ri : Cert.frame_ReferenceIdeal := fun m ρ _ =>
  (θ_run Cert.ReferenceIdeal.defs _ _).mono (fun _ h c => (h c).2) (Cert.ReferenceIdeal.Value.run (F := Ideal) m ρ)

/-- The reference divides by √1024, which is 32. -/
theorem ref_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v24 (F := Ideal) m' c = result m c := by
  funext i
  obtain ⟨b, t, d, rfl⟩ : ∃ b t d, i = ix3 b t d := ⟨i 0, i 1, i 2, eq_ix3 i⟩
  refine (Cert.ReferenceIdeal.RefVal.ref_value m' c b t d).trans ?_
  rw [h0, h1, h2, Cert.Proof.Fin.sqrt1024_eq]
  rfl

theorem frame_ki : Cert.frame_KernelIdeal := fun m ρ _ => Cert.KernelIdeal.Fr.frame m ρ

theorem kernel_result (m : (ℓ : Loc Cert.KernelIdeal.nD Cert.KernelIdeal.τ Cert.KernelIdeal.sig) → Buf (Elt Ideal) ℓ)
    (hpre : Cert.Pre_KernelIdeal m) (c : Dev Cert.KernelIdeal.nD) :
    (Cert.KernelIdeal.Fr.dat2 (F := Ideal) (Cert.KernelIdeal.Fr.E2 m) c).arrAt 4 Cert.KernelIdeal.cfg2.N = result m c := by
  funext i
  obtain ⟨b, t, d, rfl⟩ : ∃ b t d, i = ix3 b t d := ⟨i 0, i 1, i 2, eq_ix3 i⟩
  exact Cert.KernelIdeal.Val.kernel_value m hpre c b t d

/-- Both runs end at `result`: the kernel program's by the value chain, the reference's by its read-back. -/
theorem algebraic : Cert.algebraic_KernelIdeal_ReferenceIdeal := by
  intro m ρ m' ρ' hpre hagree
  refine ⟨result m, ?_, ?_⟩
  · exact (θ_run Cert.KernelIdeal.defs _ _).mono (fun _ h c => ⟨(h c).1.trans (kernel_result m hpre c), (h c).2⟩)
      (Cert.KernelIdeal.Fr.run (F := Ideal) m ρ)
  · exact (θ_run Cert.ReferenceIdeal.defs _ _).mono
      (fun _ h c => ⟨(h c).1.trans (ref_result m m' c (hagree c).1 (hagree c).2.1 (hagree c).2.2), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, Cert.Proof.Fin.preserves, algebraic⟩

end Cert.Proof

end
